-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S7x128x128 : Shape := ⟨3, ![7, 128, 128]⟩
abbrev S7x128 : Shape := ⟨2, ![7, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128x2 .f32) (main_arg7 : FVec F S2 .f32) (main_v13 : IVec S_ 1) (main_v16 : IVec S7x128 1) : IVec S_ 1 :=
  let main_c_5 : IVec S_ 1 := constantI S_ 1 1#1
  let main_v17 : IVec S_ 1 := (fun x v => Host.reduce IntOp.andi x v reducesTo_S7x128_S_d0_1 h_S_) main_v16 main_c_5
  let main_v18 : IVec S_ 1 := andi main_v13 main_v17
  let main_v19 : FVec F S128x2 .f32 := Host.absf main_arg6
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S2 .f32 := Host.absf main_arg7
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : IVec S50000 32) (main_arg3 : FVec F S7x128x128 .f32) (main_arg4 : FVec F S7x128x128 .f32) (main_arg5 : FVec F S7x128 .f32) (main_arg6 : FVec F S128x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S7x128x128 .f32 := Host.absf main_arg3
  let main_cst_0 : FVec F S_ .f32 := constant S_ .f32 0x7F800000#32
  let main_v5 : FVec F S7x128x128 .f32 := broadcastInDim S7x128x128 ![] bcast_S_S7x128x128 main_cst_0
  let main_v6 : IVec S7x128x128 1 := cmpf .olt main_v4 main_v5
  let main_c_1 : IVec S_ 1 := constantI S_ 1 1#1
  let main_v7 : IVec S_ 1 := (fun x v => Host.reduce IntOp.andi x v reducesTo_S7x128x128_S_d0_1_2 h_S_) main_v6 main_c_1
  let main_v8 : IVec S_ 1 := andi main_v3 main_v7
  let main_v9 : FVec F S7x128x128 .f32 := Host.absf main_arg4
  let main_cst_2 : FVec F S_ .f32 := constant S_ .f32 0x7F800000#32
  let main_v10 : FVec F S7x128x128 .f32 := broadcastInDim S7x128x128 ![] bcast_S_S7x128x128 main_cst_2
  let main_v11 : IVec S7x128x128 1 := cmpf .olt main_v9 main_v10
  let main_c_3 : IVec S_ 1 := constantI S_ 1 1#1
  let main_v12 : IVec S_ 1 := (fun x v => Host.reduce IntOp.andi x v reducesTo_S7x128x128_S_d0_1_2 h_S_) main_v11 main_c_3
  let main_v13 : IVec S_ 1 := andi main_v8 main_v12
  let main_v14 : FVec F S7x128 .f32 := Host.absf main_arg5
  let main_cst_4 : FVec F S_ .f32 := constant S_ .f32 0x7F800000#32
  let main_v15 : FVec F S7x128 .f32 := broadcastInDim S7x128 ![] bcast_S_S7x128 main_cst_4
  let main_v16 : IVec S7x128 1 := cmpf .olt main_v14 main_v15
  fn_part1 (F := F) main_arg6 main_arg7 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S7x128x128 : Shape := ⟨3, ![7, 128, 128]⟩
abbrev S7x128 : Shape := ⟨2, ![7, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x128 : Shape := ⟨2, ![512, 128]⟩
abbrev S5000x1 : Shape := ⟨2, ![5000, 1]⟩
abbrev S5000x512 : Shape := ⟨2, ![5000, 512]⟩
abbrev S500x128 : Shape := ⟨2, ![500, 128]⟩
abbrev S500x2 : Shape := ⟨2, ![500, 2]⟩
abbrev S1x2 : Shape := ⟨2, ![1, 2]⟩

abbrev nBuf : Space → Nat
  | .hbm => 194
  | .vmem => 69
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S7x128x128, .f32⟩
  | 4 => ⟨S7x128x128, .f32⟩
  | 5 => ⟨S7x128, .f32⟩
  | 6 => ⟨S128x2, .f32⟩
  | 7 => ⟨S2, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S50000x128, .f32⟩
  | 41 => ⟨S1x128x128, .f32⟩
  | 42 => ⟨S128x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S50000x128, .f32⟩
  | 64 => ⟨S1x128x128, .f32⟩
  | 65 => ⟨S128x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S50000x128, .f32⟩
  | 86 => ⟨S50000x128, .f32⟩
  | 87 => ⟨S1x128x128, .f32⟩
  | 88 => ⟨S128x128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x128, .f32⟩
  | 109 => ⟨S50000x128, .f32⟩
  | 110 => ⟨S1x128x128, .f32⟩
  | 111 => ⟨S128x128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x128, .f32⟩
  | 4 => ⟨S50000x128, .f32⟩
  | 5 => ⟨S1x128x128, .f32⟩
  | 6 => ⟨S128x128, .f32⟩
  | 7 => ⟨S1x128x128, .f32⟩
  | 8 => ⟨S128x128, .f32⟩
  | 9 => ⟨S1x128, .f32⟩
  | 10 => ⟨S128, .f32⟩
  | 11 => ⟨S1x128, .f32⟩
  | 12 => ⟨S50000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x128, .f32⟩
  | 27 => ⟨S50000x128, .f32⟩
  | 28 => ⟨S1x128x128, .f32⟩
  | 29 => ⟨S128x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x128, .f32⟩
  | 50 => ⟨S50000x128, .f32⟩
  | 51 => ⟨S1x128x128, .f32⟩
  | 52 => ⟨S128x128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S50000x128, .f32⟩
  | 59 => ⟨S50000x1, .i32⟩
  | 60 => ⟨S512x128, .f32⟩
  | 61 => ⟨S500x128, .f32⟩
  | 62 => ⟨S500x2, .f32⟩
  | 63 => ⟨S1x2, .f32⟩
  | 64 => ⟨S500x2, .f32⟩
  | 65 => ⟨S500x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S5000x1, .i32⟩
  | .local _ .vmem, ⟨64, _⟩ => ⟨S5000x1, .i32⟩
  | .local _ .vmem, ⟨65, _⟩ => ⟨S5000x128, .f32⟩
  | .local _ .vmem, ⟨66, _⟩ => ⟨S5000x128, .f32⟩
  | .local _ .vmem, ⟨67, _⟩ => ⟨S512x128, .f32⟩
  | .local _ .vmem, ⟨68, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_11 : Ref sig .tc := ⟨.hbm, 95, rfl⟩
abbrev main_v72 : Ref sig .tc := ⟨.hbm, 96, rfl⟩
abbrev main_v73 : Ref sig .tc := ⟨.hbm, 97, rfl⟩
abbrev main_c_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_14 : Ref sig .tc := ⟨.hbm, 118, rfl⟩
abbrev main_v92 : Ref sig .tc := ⟨.hbm, 119, rfl⟩
abbrev main_v93 : Ref sig .tc := ⟨.hbm, 120, rfl⟩
abbrev main_c_15 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_16 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_c_17 : Ref sig .tc := ⟨.hbm, 141, rfl⟩
abbrev main_v112 : Ref sig .tc := ⟨.hbm, 142, rfl⟩
abbrev main_v113 : Ref sig .tc := ⟨.hbm, 143, rfl⟩
abbrev main_c_18 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_19 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_c_20 : Ref sig .tc := ⟨.hbm, 164, rfl⟩
abbrev main_v132 : Ref sig .tc := ⟨.hbm, 165, rfl⟩
abbrev main_v133 : Ref sig .tc := ⟨.hbm, 166, rfl⟩
abbrev main_c_21 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_22 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_scratch0 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x1 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  shapeCasts_S50000_S50000x1 : S50000.ShapeCasts S50000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S5000x512_d1_w32 : S5000x512.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x512 : S5000x1.Broadcasts S5000x512
  natLt_1_32 : 1 < 32
  slices_S512x128_S500x128_0_0 : S512x128.Slices ![0, 0] S500x128
  bcast_S2_S1x2_1 : S2.BroadcastsInDim S1x2 (![1] : Fin 1 → Fin S1x2.rank)
  bcast_S1x2_S500x2_0_1 : S1x2.BroadcastsInDim S500x2 (![0, 1] : Fin 2 → Fin S500x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x512_S5000x128_S512x128_0_0_1_1_n_n_wf : DotDims.WF S5000x512 S5000x128 S512x128 [0] [0] [1] [1] [] []
  dot_S500x128_S128x2_S500x2_1_0_0_1_n_n_wf : DotDims.WF S500x128 S128x2 S500x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x1.size a ≤ S50000x1.size a
  hwx7_0 : ∀ i : grid7.Coords, EltTy.bits .i32 = 32 ∨ (Rect.block (s := S50000x1) S5000x1.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x128.size a ≤ S512x128.size a
  hwx7_2 : ∀ i : grid7.Coords, EltTy.bits .f32 = 32 ∨ (Rect.block (s := S512x128) S512x128.size (cc7_transform_2 i) (hinb7_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S500x128_S128x2_S500x2_1_0_0_1_n_n : DotDims S500x128 S128x2 S500x2 where
  lhsContracting := [1]
  rhsContracting := [0]
  lhsNonContracting := [0]
  rhsNonContracting := [1]
  lhsBatch := []
  rhsBatch := []
  wf := dot_S500x128_S128x2_S500x2_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v103) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v105) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v110) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v123) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v125) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v130) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v143) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v131) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v145) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v147) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v150) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v151) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v152) S5000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v151) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v153) S512x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S7x128x128 : Shape := ⟨3, ![7, 128, 128]⟩
abbrev S7x128 : Shape := ⟨2, ![7, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S500x128 : Shape := ⟨2, ![500, 128]⟩
abbrev S500x2 : Shape := ⟨2, ![500, 2]⟩
abbrev S1x2 : Shape := ⟨2, ![1, 2]⟩

abbrev nBuf : Space → Nat
  | .hbm => 241
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S7x128x128, .f32⟩
  | 4 => ⟨S7x128x128, .f32⟩
  | 5 => ⟨S7x128, .f32⟩
  | 6 => ⟨S128x2, .f32⟩
  | 7 => ⟨S2, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S_, .f32⟩
  | 126 => ⟨S50000x128, .f32⟩
  | 127 => ⟨S800000x1, .i32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128x128, .f32⟩
  | 4 => ⟨S128x128, .f32⟩
  | 5 => ⟨S50000x128, .f32⟩
  | 6 => ⟨S1x128, .f32⟩
  | 7 => ⟨S128, .f32⟩
  | 8 => ⟨S1x128, .f32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x128, .f32⟩
  | 93 => ⟨S1x128x128, .f32⟩
  | 94 => ⟨S128x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S50000x128, .f32⟩
  | 105 => ⟨S_, .f32⟩
  | 106 => ⟨S500x128, .f32⟩
  | 107 => ⟨S50000x1, .i32⟩
  | 108 => ⟨S500x128, .f32⟩
  | 109 => ⟨S500x2, .f32⟩
  | 110 => ⟨S1x2, .f32⟩
  | 111 => ⟨S500x2, .f32⟩
  | 112 => ⟨S500x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call2_cst : Ref sig .tc := ⟨.hbm, 83, rfl⟩
abbrev main_call2_v0 : Ref sig .tc := ⟨.hbm, 84, rfl⟩
abbrev main_v61 : Ref sig .tc := ⟨.hbm, 85, rfl⟩
abbrev main_c_8 : Ref sig .tc := ⟨.hbm, 86, rfl⟩
abbrev main_v62 : Ref sig .tc := ⟨.hbm, 87, rfl⟩
abbrev main_v63 : Ref sig .tc := ⟨.hbm, 88, rfl⟩
abbrev main_c_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call3_cst : Ref sig .tc := ⟨.hbm, 113, rfl⟩
abbrev main_call3_v0 : Ref sig .tc := ⟨.hbm, 114, rfl⟩
abbrev main_v86 : Ref sig .tc := ⟨.hbm, 115, rfl⟩
abbrev main_c_11 : Ref sig .tc := ⟨.hbm, 116, rfl⟩
abbrev main_v87 : Ref sig .tc := ⟨.hbm, 117, rfl⟩
abbrev main_v88 : Ref sig .tc := ⟨.hbm, 118, rfl⟩
abbrev main_c_12 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_13 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_call4_cst : Ref sig .tc := ⟨.hbm, 143, rfl⟩
abbrev main_call4_v0 : Ref sig .tc := ⟨.hbm, 144, rfl⟩
abbrev main_v111 : Ref sig .tc := ⟨.hbm, 145, rfl⟩
abbrev main_c_14 : Ref sig .tc := ⟨.hbm, 146, rfl⟩
abbrev main_v112 : Ref sig .tc := ⟨.hbm, 147, rfl⟩
abbrev main_v113 : Ref sig .tc := ⟨.hbm, 148, rfl⟩
abbrev main_c_15 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_16 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_call5_cst : Ref sig .tc := ⟨.hbm, 173, rfl⟩
abbrev main_call5_v0 : Ref sig .tc := ⟨.hbm, 174, rfl⟩
abbrev main_v136 : Ref sig .tc := ⟨.hbm, 175, rfl⟩
abbrev main_c_17 : Ref sig .tc := ⟨.hbm, 176, rfl⟩
abbrev main_v137 : Ref sig .tc := ⟨.hbm, 177, rfl⟩
abbrev main_v138 : Ref sig .tc := ⟨.hbm, 178, rfl⟩
abbrev main_c_18 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_19 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_call6_cst : Ref sig .tc := ⟨.hbm, 203, rfl⟩
abbrev main_call6_v0 : Ref sig .tc := ⟨.hbm, 204, rfl⟩
abbrev main_v161 : Ref sig .tc := ⟨.hbm, 205, rfl⟩
abbrev main_c_20 : Ref sig .tc := ⟨.hbm, 206, rfl⟩
abbrev main_v162 : Ref sig .tc := ⟨.hbm, 207, rfl⟩
abbrev main_v163 : Ref sig .tc := ⟨.hbm, 208, rfl⟩
abbrev main_c_21 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_22 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_23 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  bcast_S_S500x128 : S_.BroadcastsInDim S500x128 (![] : Fin 0 → Fin S500x128.rank)
  bcast_S2_S1x2_1 : S2.BroadcastsInDim S1x2 (![1] : Fin 1 → Fin S1x2.rank)
  bcast_S1x2_S500x2_0_1 : S1x2.BroadcastsInDim S500x2 (![0, 1] : Fin 2 → Fin S500x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  dot_S500x128_S128x2_S500x2_1_0_0_1_n_n_wf : DotDims.WF S500x128 S128x2 S500x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x2_S500x2_1_0_0_1_n_n : DotDims S500x128 S128x2 S500x2 where
  lhsContracting := [1]
  rhsContracting := [0]
  lhsNonContracting := [0]
  rhsNonContracting := [1]
  lhsBatch := []
  rhsBatch := []
  wf := dot_S500x128_S128x2_S500x2_1_0_0_1_n_n_wf

class Facts : Prop extends Facts₀ where

variable [Facts]
-- ==== Proof.KB.Sage0.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

-- What the body leaves in the output block: its one payload, laid over the whole block.
def out0_5 (x0 x1 : Vec F S5000x128 .f32) (x2 x3 : Vec F S128x128 .f32) (x4 : Vec F S1x128 .f32) : Vec F S5000x128 .f32 :=
  View.canon [⟨r0_a, k0_pay1 (View.ld x0 r0_a) (View.ld x1 r0_a) (View.ld x2 r0_b) (View.ld x3 r0_b) (View.ld x4 r0_c)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

-- The body leaves each input block as it was, so every point finds it at the contents V.
theorem before0 (c : Dev nD) (t : Fin cfg0.N) : ∀ w : Fin cfg0.W, w.1 < 5 → ∀ d, (dat0 V c).before w t d = (dat0 V c).fetched w t d
  | ⟨0, _⟩, _, d | ⟨1, _⟩, _, d | ⟨2, _⟩, _, d | ⟨3, _⟩, _, d | ⟨4, _⟩, _, d =>
    (dat0 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation0 (c : Dev nD) : BodyObligation (dat0 (F := F) V c) (defs₀ (F := F)) Variants.none () Set.univ := fun t => by
  rw [bigSep_W0, bigSep_W0]
  show iprop(_ ∗ _ ∗ (∃ d, _) ∗ (∃ d, _) ∗ (∃ d, _) ∗ (∃ d, _) ∗ (∃ d, _) ∗ ∃ d, _) ⊢ wp _ _ _ (bodyAt0 t) fun _ => iprop(_ ∗ _ ∗ owns _ _ _ _ ∗ owns _ _ _ _ ∗ owns _ _ _ _ ∗ owns _ _ _ _ ∗ owns _ _ _ _ ∗ owns _ _ _ _)
  simp (disch := decide) only [before0 V c t]
  dsimp only [dat0]
  unfold bodyAt0 owns
  simp only [cc0__sage_kernel_eq_skeleton]; unfold cc0__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk0 V c 0 t from h0, ← show _ = iblk0 V c 1 t from h1, ← show _ = iblk0 V c 2 t from h2, ← show _ = iblk0 V c 3 t from h3, ← show _ = iblk0 V c 4 t from h4]
  exact View.read_writes_eq_canon _ _ _ (View.cover_of_tiled _ S5000x128.size (by rfl))

end Cert.Kernel.Hand

end
-- ==== Proof.KB.Sage1.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0

-- What the body leaves in the output block: its one payload, laid over the whole block.
def out1_5 (x0 x1 : Vec F S5000x128 .f32) (x2 x3 : Vec F S128x128 .f32) (x4 : Vec F S1x128 .f32) : Vec F S5000x128 .f32 :=
  View.canon [⟨r1_a, k1_pay1 (View.ld x0 r1_a) (View.ld x1 r1_a) (View.ld x2 r1_b) (View.ld x3 r1_b) (View.ld x4 r1_c)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

-- The body leaves each input block as it was, so every point finds it at the contents V.
theorem before1 (c : Dev nD) (t : Fin cfg1.N) : ∀ w : Fin cfg1.W, w.1 < 5 → ∀ d, (dat1 V c).before w t d = (dat1 V c).fetched w t d
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation1 (c : Dev nD) : BodyObligation (dat1 (F := F) V c) (defs₀ (F := F)) Variants.none () Set.univ := fun t => by
  rw [bigSep_W1, bigSep_W1]
  show iprop(_ ∗ _ ∗ (∃ d, _) ∗ (∃ d, _) ∗ (∃ d, _) ∗ (∃ d, _) ∗ (∃ d, _) ∗ ∃ d, _) ⊢ wp _ _ _ (bodyAt1 t) fun _ => iprop(_ ∗ _ ∗ owns _ _ _ _ ∗ owns _ _ _ _ ∗ owns _ _ _ _ ∗ owns _ _ _ _ ∗ owns _ _ _ _ ∗ owns _ _ _ _)
  simp (disch := decide) only [before1 V c t]
  dsimp only [dat1]
  unfold bodyAt1 owns
  simp only [cc1__sage_kernel_eq_skeleton]; unfold cc1__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk1 V c 0 t from h0, ← show _ = iblk1 V c 1 t from h1, ← show _ = iblk1 V c 2 t from h2, ← show _ = iblk1 V c 3 t from h3, ← show _ = iblk1 V c 4 t from h4]
  exact View.read_writes_eq_canon _ _ _ (View.cover_of_tiled _ S5000x128.size (by rfl))

end Cert.Kernel.Hand

end
-- ==== Proof.KB.Sage2.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x128 := Rect.unit (s := S5000x128) ![0, 0] S5000x128.size inb_S5000x128_S5000x128_0_0
abbrev r2_b : Rect S128x128 := Rect.unit (s := S128x128) ![0, 0] S128x128.size inb_S128x128_S128x128_0_0
abbrev r2_c : Rect S1x128 := Rect.unit (s := S1x128) ![0, 0] S1x128.size inb_S1x128_S1x128_0_0

-- What the body leaves in the output block: its one payload, laid over the whole block.
def out2_5 (x0 x1 : Vec F S5000x128 .f32) (x2 x3 : Vec F S128x128 .f32) (x4 : Vec F S1x128 .f32) : Vec F S5000x128 .f32 :=
  View.canon [⟨r2_a, k2_pay1 (View.ld x0 r2_a) (View.ld x1 r2_a) (View.ld x2 r2_b) (View.ld x3 r2_b) (View.ld x4 r2_c)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

-- The body leaves each input block as it was, so every point finds it at the contents V.
theorem before2 (c : Dev nD) (t : Fin cfg2.N) : ∀ w : Fin cfg2.W, w.1 < 5 → ∀ d, (dat2 V c).before w t d = (dat2 V c).fetched w t d
  | ⟨0, _⟩, _, d | ⟨1, _⟩, _, d | ⟨2, _⟩, _, d | ⟨3, _⟩, _, d | ⟨4, _⟩, _, d =>
    (dat2 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation2 (c : Dev nD) : BodyObligation (dat2 (F := F) V c) (defs₀ (F := F)) Variants.none () Set.univ := fun t => by
  rw [bigSep_W2, bigSep_W2]
  show iprop(_ ∗ _ ∗ (∃ d, _) ∗ (∃ d, _) ∗ (∃ d, _) ∗ (∃ d, _) ∗ (∃ d, _) ∗ ∃ d, _) ⊢ wp _ _ _ (bodyAt2 t) fun _ => iprop(_ ∗ _ ∗ owns _ _ _ _ ∗ owns _ _ _ _ ∗ owns _ _ _ _ ∗ owns _ _ _ _ ∗ owns _ _ _ _ ∗ owns _ _ _ _)
  simp (disch := decide) only [before2 V c t]
  dsimp only [dat2]
  unfold bodyAt2 owns
  simp only [cc2__sage_kernel_eq_skeleton]; unfold cc2__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk2 V c 0 t from h0, ← show _ = iblk2 V c 1 t from h1, ← show _ = iblk2 V c 2 t from h2, ← show _ = iblk2 V c 3 t from h3, ← show _ = iblk2 V c 4 t from h4]
  exact View.read_writes_eq_canon _ _ _ (View.cover_of_tiled _ S5000x128.size (by rfl))

end Cert.Kernel.Hand

end
-- ==== Proof.KB.Sage3.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x128 := Rect.unit (s := S5000x128) ![0, 0] S5000x128.size inb_S5000x128_S5000x128_0_0
abbrev r3_b : Rect S128x128 := Rect.unit (s := S128x128) ![0, 0] S128x128.size inb_S128x128_S128x128_0_0
abbrev r3_c : Rect S1x128 := Rect.unit (s := S1x128) ![0, 0] S1x128.size inb_S1x128_S1x128_0_0

-- What the body leaves in the output block: its one payload, laid over the whole block.
def out3_5 (x0 x1 : Vec F S5000x128 .f32) (x2 x3 : Vec F S128x128 .f32) (x4 : Vec F S1x128 .f32) : Vec F S5000x128 .f32 :=
  View.canon [⟨r3_a, k3_pay1 (View.ld x0 r3_a) (View.ld x1 r3_a) (View.ld x2 r3_b) (View.ld x3 r3_b) (View.ld x4 r3_c)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

-- The body leaves each input block as it was, so every point finds it at the contents V.
theorem before3 (c : Dev nD) (t : Fin cfg3.N) : ∀ w : Fin cfg3.W, w.1 < 5 → ∀ d, (dat3 V c).before w t d = (dat3 V c).fetched w t d
  | ⟨0, _⟩, _, d | ⟨1, _⟩, _, d | ⟨2, _⟩, _, d | ⟨3, _⟩, _, d | ⟨4, _⟩, _, d =>
    (dat3 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation3 (c : Dev nD) : BodyObligation (dat3 (F := F) V c) (defs₀ (F := F)) Variants.none () Set.univ := fun t => by
  rw [bigSep_W3, bigSep_W3]
  show iprop(_ ∗ _ ∗ (∃ d, _) ∗ (∃ d, _) ∗ (∃ d, _) ∗ (∃ d, _) ∗ (∃ d, _) ∗ ∃ d, _) ⊢ wp _ _ _ (bodyAt3 t) fun _ => iprop(_ ∗ _ ∗ owns _ _ _ _ ∗ owns _ _ _ _ ∗ owns _ _ _ _ ∗ owns _ _ _ _ ∗ owns _ _ _ _ ∗ owns _ _ _ _)
  simp (disch := decide) only [before3 V c t]
  dsimp only [dat3]
  unfold bodyAt3 owns
  simp only [cc3__sage_kernel_eq_skeleton]; unfold cc3__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk3 V c 0 t from h0, ← show _ = iblk3 V c 1 t from h1, ← show _ = iblk3 V c 2 t from h2, ← show _ = iblk3 V c 3 t from h3, ← show _ = iblk3 V c 4 t from h4]
  exact View.read_writes_eq_canon _ _ _ (View.cover_of_tiled _ S5000x128.size (by rfl))

end Cert.Kernel.Hand

end
-- ==== Proof.KB.Sage4.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S5000x128 := Rect.unit (s := S5000x128) ![0, 0] S5000x128.size inb_S5000x128_S5000x128_0_0
abbrev r4_b : Rect S128x128 := Rect.unit (s := S128x128) ![0, 0] S128x128.size inb_S128x128_S128x128_0_0
abbrev r4_c : Rect S1x128 := Rect.unit (s := S1x128) ![0, 0] S1x128.size inb_S1x128_S1x128_0_0

-- What the body leaves in the output block: its one payload, laid over the whole block.
def out4_5 (x0 x1 : Vec F S5000x128 .f32) (x2 x3 : Vec F S128x128 .f32) (x4 : Vec F S1x128 .f32) : Vec F S5000x128 .f32 :=
  View.canon [⟨r4_a, k4_pay1 (View.ld x0 r4_a) (View.ld x1 r4_a) (View.ld x2 r4_b) (View.ld x3 r4_b) (View.ld x4 r4_c)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

-- The body leaves each input block as it was, so every point finds it at the contents V.
theorem before4 (c : Dev nD) (t : Fin cfg4.N) : ∀ w : Fin cfg4.W, w.1 < 5 → ∀ d, (dat4 V c).before w t d = (dat4 V c).fetched w t d
  | ⟨0, _⟩, _, d | ⟨1, _⟩, _, d | ⟨2, _⟩, _, d | ⟨3, _⟩, _, d | ⟨4, _⟩, _, d =>
    (dat4 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation4 (c : Dev nD) : BodyObligation (dat4 (F := F) V c) (defs₀ (F := F)) Variants.none () Set.univ := fun t => by
  rw [bigSep_W4, bigSep_W4]
  show iprop(_ ∗ _ ∗ (∃ d, _) ∗ (∃ d, _) ∗ (∃ d, _) ∗ (∃ d, _) ∗ (∃ d, _) ∗ ∃ d, _) ⊢ wp _ _ _ (bodyAt4 t) fun _ => iprop(_ ∗ _ ∗ owns _ _ _ _ ∗ owns _ _ _ _ ∗ owns _ _ _ _ ∗ owns _ _ _ _ ∗ owns _ _ _ _ ∗ owns _ _ _ _)
  simp (disch := decide) only [before4 V c t]
  dsimp only [dat4]
  unfold bodyAt4 owns
  simp only [cc4__sage_kernel_eq_skeleton]; unfold cc4__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk4 V c 0 t from h0, ← show _ = iblk4 V c 1 t from h1, ← show _ = iblk4 V c 2 t from h2, ← show _ = iblk4 V c 3 t from h3, ← show _ = iblk4 V c 4 t from h4]
  exact View.read_writes_eq_canon _ _ _ (View.cover_of_tiled _ S5000x128.size (by rfl))

end Cert.Kernel.Hand

end
-- ==== Proof.KB.Sage5.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x128 := Rect.unit (s := S5000x128) ![0, 0] S5000x128.size inb_S5000x128_S5000x128_0_0
abbrev r5_b : Rect S128x128 := Rect.unit (s := S128x128) ![0, 0] S128x128.size inb_S128x128_S128x128_0_0
abbrev r5_c : Rect S1x128 := Rect.unit (s := S1x128) ![0, 0] S1x128.size inb_S1x128_S1x128_0_0

-- What the body leaves in the output block: its one payload, laid over the whole block.
def out5_5 (x0 x1 : Vec F S5000x128 .f32) (x2 x3 : Vec F S128x128 .f32) (x4 : Vec F S1x128 .f32) : Vec F S5000x128 .f32 :=
  View.canon [⟨r5_a, k5_pay1 (View.ld x0 r5_a) (View.ld x1 r5_a) (View.ld x2 r5_b) (View.ld x3 r5_b) (View.ld x4 r5_c)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

-- The body leaves each input block as it was, so every point finds it at the contents V.
theorem before5 (c : Dev nD) (t : Fin cfg5.N) : ∀ w : Fin cfg5.W, w.1 < 5 → ∀ d, (dat5 V c).before w t d = (dat5 V c).fetched w t d
  | ⟨0, _⟩, _, d | ⟨1, _⟩, _, d | ⟨2, _⟩, _, d | ⟨3, _⟩, _, d | ⟨4, _⟩, _, d =>
    (dat5 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation5 (c : Dev nD) : BodyObligation (dat5 (F := F) V c) (defs₀ (F := F)) Variants.none () Set.univ := fun t => by
  rw [bigSep_W5, bigSep_W5]
  show iprop(_ ∗ _ ∗ (∃ d, _) ∗ (∃ d, _) ∗ (∃ d, _) ∗ (∃ d, _) ∗ (∃ d, _) ∗ ∃ d, _) ⊢ wp _ _ _ (bodyAt5 t) fun _ => iprop(_ ∗ _ ∗ owns _ _ _ _ ∗ owns _ _ _ _ ∗ owns _ _ _ _ ∗ owns _ _ _ _ ∗ owns _ _ _ _ ∗ owns _ _ _ _)
  simp (disch := decide) only [before5 V c t]
  dsimp only [dat5]
  unfold bodyAt5 owns
  simp only [cc5__sage_kernel_eq_skeleton]; unfold cc5__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk5 V c 0 t from h0, ← show _ = iblk5 V c 1 t from h1, ← show _ = iblk5 V c 2 t from h2, ← show _ = iblk5 V c 3 t from h3, ← show _ = iblk5 V c 4 t from h4]
  exact View.read_writes_eq_canon _ _ _ (View.cover_of_tiled _ S5000x128.size (by rfl))

end Cert.Kernel.Hand

end
-- ==== Proof.KB.Sage6.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_a : Rect S5000x128 := Rect.unit (s := S5000x128) ![0, 0] S5000x128.size inb_S5000x128_S5000x128_0_0
abbrev r6_b : Rect S128x128 := Rect.unit (s := S128x128) ![0, 0] S128x128.size inb_S128x128_S128x128_0_0
abbrev r6_c : Rect S1x128 := Rect.unit (s := S1x128) ![0, 0] S1x128.size inb_S1x128_S1x128_0_0

-- What the body leaves in the output block: its one payload, laid over the whole block.
def out6_5 (x0 x1 : Vec F S5000x128 .f32) (x2 x3 : Vec F S128x128 .f32) (x4 : Vec F S1x128 .f32) : Vec F S5000x128 .f32 :=
  View.canon [⟨r6_a, k6_pay1 (View.ld x0 r6_a) (View.ld x1 r6_a) (View.ld x2 r6_b) (View.ld x3 r6_b) (View.ld x4 r6_c)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

-- The body leaves each input block as it was, so every point finds it at the contents V.
theorem before6 (c : Dev nD) (t : Fin cfg6.N) : ∀ w : Fin cfg6.W, w.1 < 5 → ∀ d, (dat6 V c).before w t d = (dat6 V c).fetched w t d
  | ⟨0, _⟩, _, d | ⟨1, _⟩, _, d | ⟨2, _⟩, _, d | ⟨3, _⟩, _, d | ⟨4, _⟩, _, d =>
    (dat6 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation6 (c : Dev nD) : BodyObligation (dat6 (F := F) V c) (defs₀ (F := F)) Variants.none () Set.univ := fun t => by
  rw [bigSep_W6, bigSep_W6]
  show iprop(_ ∗ _ ∗ (∃ d, _) ∗ (∃ d, _) ∗ (∃ d, _) ∗ (∃ d, _) ∗ (∃ d, _) ∗ ∃ d, _) ⊢ wp _ _ _ (bodyAt6 t) fun _ => iprop(_ ∗ _ ∗ owns _ _ _ _ ∗ owns _ _ _ _ ∗ owns _ _ _ _ ∗ owns _ _ _ _ ∗ owns _ _ _ _ ∗ owns _ _ _ _)
  simp (disch := decide) only [before6 V c t]
  dsimp only [dat6]
  unfold bodyAt6 owns
  simp only [cc6__sage_kernel_eq_skeleton]; unfold cc6__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk6 V c 0 t from h0, ← show _ = iblk6 V c 1 t from h1, ← show _ = iblk6 V c 2 t from h2, ← show _ = iblk6 V c 3 t from h3, ← show _ = iblk6 V c 4 t from h4]
  exact View.read_writes_eq_canon _ _ _ (View.cover_of_tiled _ S5000x128.size (by rfl))

end Cert.Kernel.Hand

end
-- ==== Proof.KB.PoolDefs.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S512x128 .f32
  | 0, h => k7_pay2 (iblk7 V c 0 ⟨0, h⟩) (iblk7 V c 1 ⟨0, h⟩) (k7_pay1 (F := F))
  | n + 1, h => k7_pay2 (iblk7 V c 0 ⟨n + 1, h⟩) (iblk7 V c 1 ⟨n + 1, h⟩) (acc7 c n (Nat.lt_of_succ_lt h))

theorem acc7_zero (c : Dev nD) (h : 0 < cfg7.N) :
    acc7 V c 0 h = k7_pay2 (iblk7 V c 0 ⟨0, h⟩) (iblk7 V c 1 ⟨0, h⟩) (k7_pay1 (F := F)) := rfl

theorem acc7_succ (c : Dev nD) (n : ℕ) (h : n + 1 < cfg7.N) :
    acc7 V c (n + 1) h = k7_pay2 (iblk7 V c 0 ⟨n + 1, h⟩) (iblk7 V c 1 ⟨n + 1, h⟩) (acc7 V c n (Nat.lt_of_succ_lt h)) := rfl

end Cert.Kernel.Hand

end
-- ==== Proof.KB.Pool.lean ====
import proofs.«422910_j59356448031328_1_alg».proof.Proof.Gen.Kernel.Launch
import proofs.«422910_j59356448031328_1_alg».proof.Proof.Gen.Kernel.Skeleton
import proofs.«422910_j59356448031328_1_alg».proof.Proof.Gen.Kernel.Points
import proofs.«422910_j59356448031328_1_alg».proof.Proof.KB.PoolDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz7 : (![0, 0] : Fin 2 → Nat) = fun _ => 0 := funext fun a => by fin_cases a <;> rfl

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)

abbrev cond7_1 (i : grid7.Coords) : Prop := k7_cond2 i = 1#1
theorem hcond7_1 : ∀ t : Fin cfg7.N, cond7_1 (grid7.coords t) ↔ t.val = 9 :=
  (by decide +kernel : ∀ t : Fin grid7.N, cond7_1 (grid7.coords t) ↔ t.val = 9)

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

-- One step of the body: the accumulator restarts from zero where the first condition holds, gains the block's product, and is the output where the second holds.
set_option maxHeartbeats 4000000 in
theorem sound_kernel7 (c : Dev nD) (E : Set ℕ) (i : grid7.Coords) (arg1 : Memref sig .tc .vmem S5000x1 .i32) (harg1 : arg1.IsWhole) (arg2 : Memref sig .tc .vmem S5000x128 .f32) (harg2 : arg2.IsWhole) (arg3 : Memref sig .tc .vmem S512x128 .f32) (harg3 : arg3.IsWhole) (arg4 : Memref sig .tc .vmem S512x128 .f32) (harg4 : arg4.IsWhole)
    (x0 : Vec F S5000x1 .i32) (x1 : Vec F S5000x128 .f32) (xi xs y3 y4 : Vec F S512x128 .f32) (K : PUnit → sProp 𝕄)
    (h : ¬(cond7_0 i ∧ cond7_1 i)) (h3 : y3 = if cond7_1 i then k7_pay2 x0 x1 xs else xi)
    (h4 : y4 = k7_pay2 x0 x1 (if cond7_0 i then k7_pay1 (F := F) else xs)) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare y3 ∗ owns (c : Thread nD τ) arg4 fullShare y4) -∗ K ⟨⟩))
      ⊢ wp frame (wpE (defs₀ (F := F)) Variants.none c none) E (cc7__pool_kernel i arg1 harg1 arg2 harg2 arg3 harg3 arg4 harg4) K := by
  by_cases hc0 : cond7_0 i <;> by_cases hc1 : cond7_1 i
  · exact absurd ⟨hc0, hc1⟩ h
  all_goals
    first | rw [if_pos hc1] at h3 | rw [if_neg hc1] at h3
    first | rw [if_pos hc0] at h4 | rw [if_neg hc0] at h4
    subst h3 h4
    simp only [cc7__pool_kernel_eq_skeleton]; unfold cc7__pool_kernel_skel
    unfold owns
    iintro ⟨⟨%f0, %hf0, H0⟩, ⟨%f1, %hf1, H1⟩, ⟨%f2, %hf2, H2⟩, ⟨%f3, %hf3, H3⟩, Hk⟩
    subst hf0 hf1 hf2 hf3
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
        | refine (View.read_writes_eq_canon _ _ _ (fun y => ⟨_, List.mem_cons.mpr (Or.inl rfl), View.mem_set_unit_zero hz7 inb_S512x128_S512x128_0_0 y⟩)).trans ?_
          rw [View.canon_cons_unit_zero hz7]
          sl_unfold_words
          simp only [View.readAt_eq_ld, View.readCov_unit_zero (S := S512x128) _ hz7, View.ld_unit_zero (S := S5000x1) hz7, View.ld_unit_zero (S := S5000x128) hz7, View.ld_unit_zero (S := S512x128) hz7]
        | rfl
    iexists _; isplitr
    swap; · iexact H3
    ipureintro
    refine (View.read_writes_eq_canon _ _ _ (fun y => ⟨_, List.mem_cons.mpr (Or.inl rfl), View.mem_set_unit_zero hz7 inb_S512x128_S512x128_0_0 y⟩)).trans ?_
    rw [View.canon_cons_unit_zero hz7]
    sl_unfold_words
    simp only [View.readAt_eq_ld, View.readCov_unit_zero (S := S512x128) _ hz7, View.ld_unit_zero (S := S5000x1) hz7, View.ld_unit_zero (S := S5000x128) hz7, View.ld_unit_zero (S := S512x128) hz7]

-- At point t an input's block is block t of its array.
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev sc7 : Memref sig .tc .vmem S512x128 .f32 := Memref.whole cc7_scratch0

def Phi7 (c : Dev nD) : (n : ℕ) → n ≤ cfg7.N → sProp 𝕄
  | 0, _ => iprop((∃ d, owns (c : Thread nD τ) sc7 fullShare d)
      ∗ Pipeline.scopedRestBut (Ix := Unit) (Name := ℕ) (U := UR sig nD τ) (Lvl := ℕ) (Val := Elt F) spec7 c [cc7_scratch0]
      ∗ (∃ r, prngReg c r))
  | n + 1, hn => iprop(owns (c : Thread nD τ) sc7 fullShare (acc7 V c n hn)
      ∗ Pipeline.scopedRestBut (Ix := Unit) (Name := ℕ) (U := UR sig nD τ) (Lvl := ℕ) (Val := Elt F) spec7 c [cc7_scratch0]
      ∗ (∃ r, prngReg c r))

theorem Phi7_zero (c : Dev nD) (n : ℕ) (h : n ≤ cfg7.N) (hz : n = 0) :
    Phi7 V c n h = iprop((∃ d, owns (c : Thread nD τ) sc7 fullShare d)
      ∗ Pipeline.scopedRestBut (Ix := Unit) (Name := ℕ) (U := UR sig nD τ) (Lvl := ℕ) (Val := Elt F) spec7 c [cc7_scratch0]
      ∗ (∃ r, prngReg c r)) := by
  subst hz; rfl

theorem Phi7_succ (c : Dev nD) (n : ℕ) (hn : n < cfg7.N) :
    Phi7 V c (n + 1) hn = iprop(owns (c : Thread nD τ) sc7 fullShare (acc7 V c n hn)
      ∗ Pipeline.scopedRestBut (Ix := Unit) (Name := ℕ) (U := UR sig nD τ) (Lvl := ℕ) (Val := Elt F) spec7 c [cc7_scratch0]
      ∗ (∃ r, prngReg c r)) := rfl

theorem Phi7_pos (c : Dev nD) (n : ℕ) (h : n ≤ cfg7.N) (hz : n ≠ 0) :
    Phi7 V c n h = iprop(owns (c : Thread nD τ) sc7 fullShare (acc7 V c (n - 1) (by omega))
      ∗ Pipeline.scopedRestBut (Ix := Unit) (Name := ℕ) (U := UR sig nD τ) (Lvl := ℕ) (Val := Elt F) spec7 c [cc7_scratch0]
      ∗ (∃ r, prngReg c r)) := by
  cases n with
  | zero => exact absurd rfl hz
  | succ n => rfl

theorem acc7_first (c : Dev nD) (t : Fin cfg7.N) (h0 : t.val = 0) :
    acc7 V c t.val t.isLt = k7_pay2 (iblk7 V c 0 t) (iblk7 V c 1 t) (k7_pay1 (F := F)) := by
  obtain ⟨n, hn⟩ := t
  cases n with
  | zero => exact acc7_zero V c hn
  | succ n => exact absurd h0 (Nat.succ_ne_zero n)

theorem acc7_pos (c : Dev nD) (t : Fin cfg7.N) (h0 : t.val ≠ 0) :
    acc7 V c t.val t.isLt = k7_pay2 (iblk7 V c 0 t) (iblk7 V c 1 t) (acc7 V c (t.val - 1) (Nat.lt_of_le_of_lt (Nat.sub_le _ _) t.isLt)) := by
  obtain ⟨n, hn⟩ := t
  cases n with
  | zero => exact absurd rfl h0
  | succ n => exact acc7_succ V c n hn

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = acc7 V c t.val t.isLt := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

theorem Phi7_castSucc (c : Dev nD) (t : Fin cfg7.N) :
    (dat7 V c).Φ t.castSucc = Phi7 V c t.val (Nat.le_of_lt t.isLt) := by
  dsimp only [dat7]; simp only [Fin.coe_castSucc]

theorem Φ7_first (c : Dev nD) : (Pipeline.ΦA spec7 c : sProp 𝕄) ⊢ (dat7 V c).Φ 0 := by
  rw [show (dat7 V c).Φ 0 = Phi7 V c 0 (Nat.zero_le _) from rfl, Phi7_zero V c 0 _ rfl]
  unfold Pipeline.ΦA; rw [scopedRest7_split]; simp only [sc7, owns_whole]
  iintro ⟨⟨HS, HR⟩, Hg⟩
  iframe

theorem Φ7_last (c : Dev nD) : (dat7 V c).Φ (Fin.last cfg7.N) ⊢ (Pipeline.ΦA spec7 c : sProp 𝕄) := by
  rw [show (dat7 V c).Φ (Fin.last cfg7.N) = Phi7 V c (Fin.last cfg7.N).val (Nat.le_of_lt_succ (Fin.last cfg7.N).isLt) from rfl,
    Phi7_pos V c _ _ (by rw [Fin.val_last]; have : cfg7.N = 10 := N_7; omega)]
  unfold Pipeline.ΦA; rw [scopedRest7_split]; simp only [sc7, owns_whole]
  iintro ⟨HS, HR, Hg⟩
  iframe
  iexists _; iexact HS

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

-- The grid position decides the two conditions; the invariant carries the accumulator from each point to the next.
set_option maxHeartbeats 4000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 10 := lt_of_lt_of_eq t.isLt (show cfg7.N = 10 from N_7)
  rw [Phi7_castSucc V c t]
  by_cases h1 : t.val = 9
  · have h0 : t.val ≠ 0 := by omega
    rw [show (dat7 V c).leavesExact 2 t = owns (c : Thread nD τ) (st7_2 t) fullShare ((dat7 V c).after 2 t) from by
      unfold Dat.leavesExact; rw [liveAt7_2 t ((hcond7_1 t).mpr h1)], after7_2]
    rw [Phi7_pos V c _ _ h0, acc7_pos V c t h0]
    iintro ⟨⟨HS, HR, Hg⟩, Ho, ⟨%d0, H0⟩, ⟨%d1, H1⟩, ⟨%d2, H2⟩⟩
    iapply (sound_kernel7 c Set.univ (grid7.coords t) _ _ _ _ _ _ _ _ (iblk7 V c 0 t) (iblk7 V c 1 t) ((dat7 V c).before 2 t d2) (acc7 V c (t.val - 1) (Nat.lt_of_le_of_lt (Nat.sub_le _ _) t.isLt)) _ _ _ (fun h => h0 ((hcond7_0 t).mp h.1)) (if_pos ((hcond7_1 t).mpr h1)).symm (congrArg (k7_pay2 _ _) (if_neg (fun h => h0 ((hcond7_0 t).mp h))).symm))
    iframe
    iintro ⟨H0, H1, H2, HS⟩
    iframe
  · rw [Dat.leavesExact_idle (dat7 V c) 2 t (idleAt7_2 t (fun h => h1 ((hcond7_1 t).mp h))) (noFlush7_2 t (fun h => h1 ((hcond7_1 t).mp h)))]
    by_cases h0 : t.val = 0
    · rw [Phi7_zero V c _ _ h0, acc7_first V c t h0]
      iintro ⟨⟨⟨%ds, HS⟩, HR, Hg⟩, Ho, ⟨%d0, H0⟩, ⟨%d1, H1⟩, ⟨%d2, H2⟩⟩
      iapply (sound_kernel7 c Set.univ (grid7.coords t) _ _ _ _ _ _ _ _ (iblk7 V c 0 t) (iblk7 V c 1 t) ((dat7 V c).before 2 t d2) ds _ _ _ (fun h => h1 ((hcond7_1 t).mp h.2)) (if_neg (fun h => h1 ((hcond7_1 t).mp h))).symm (congrArg (k7_pay2 _ _) (if_pos ((hcond7_0 t).mpr h0)).symm))
      iframe
      iintro ⟨H0, H1, H2, HS⟩
      iframe; iexists _; iexact H2
    · rw [Phi7_pos V c _ _ h0, acc7_pos V c t h0]
      iintro ⟨⟨HS, HR, Hg⟩, Ho, ⟨%d0, H0⟩, ⟨%d1, H1⟩, ⟨%d2, H2⟩⟩
      iapply (sound_kernel7 c Set.univ (grid7.coords t) _ _ _ _ _ _ _ _ (iblk7 V c 0 t) (iblk7 V c 1 t) ((dat7 V c).before 2 t d2) (acc7 V c (t.val - 1) (Nat.lt_of_le_of_lt (Nat.sub_le _ _) t.isLt)) _ _ _ (fun h => h1 ((hcond7_1 t).mp h.2)) (if_neg (fun h => h1 ((hcond7_1 t).mp h))).symm (congrArg (k7_pay2 _ _) (if_neg (fun h => h0 ((hcond7_0 t).mp h))).symm))
      iframe
      iintro ⟨H0, H1, H2, HS⟩
      iframe; iexists _; iexact H2

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Run.lean ====
import proofs.«422910_j59356448031328_1_alg».proof.Proof.KB.Sage0
import proofs.«422910_j59356448031328_1_alg».proof.Proof.KB.Sage1
import proofs.«422910_j59356448031328_1_alg».proof.Proof.KB.Sage2
import proofs.«422910_j59356448031328_1_alg».proof.Proof.KB.Sage3
import proofs.«422910_j59356448031328_1_alg».proof.Proof.KB.Sage4
import proofs.«422910_j59356448031328_1_alg».proof.Proof.KB.Sage5
import proofs.«422910_j59356448031328_1_alg».proof.Proof.KB.Sage6
import proofs.«422910_j59356448031328_1_alg».proof.Proof.KB.Pool
import proofs.«422910_j59356448031328_1_alg».proof.Proof.Gen.Kernel.Regions
import Idealize.ShloMosaic.Lib.Pipeline.Regions
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev E3 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
abbrev W5 : Dev nD → Valuation τ sig (Elt F) := fun c => StableHlo.after hostOps1 (W4 m c)
abbrev E5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb
abbrev W7 : Dev nD → Valuation τ sig (Elt F) := fun c => StableHlo.after hostOps2 (W6 m c)
abbrev E7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb
abbrev W9 : Dev nD → Valuation τ sig (Elt F) := fun c => StableHlo.after hostOps3 (W8 m c)
abbrev E9 : (c : Dev nD) → (b : Ref sig .tc) → Buf (Elt F) ((c : Thread nD τ).loc b) := fun c b => W9 m c b
def W10 (c : Dev nD) : Valuation τ sig (Elt F) :=
  Pipeline.withArrays spec3 c (W9 m c) fun w => (dat3 (E9 m) c).arrAt w cfg3.N
theorem W10_arr (c : Dev nD) (w : Fin cfg3.W) :
    W10 m c (Proc.devRef .tc (Pipeline.arrRef spec3 w)) = (dat3 (E9 m) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb
abbrev W11 : Dev nD → Valuation τ sig (Elt F) := fun c => StableHlo.after hostOps4 (W10 m c)
abbrev E11 : (c : Dev nD) → (b : Ref sig .tc) → Buf (Elt F) ((c : Thread nD τ).loc b) := fun c b => W11 m c b
def W12 (c : Dev nD) : Valuation τ sig (Elt F) :=
  Pipeline.withArrays spec4 c (W11 m c) fun w => (dat4 (E11 m) c).arrAt w cfg4.N
theorem W12_arr (c : Dev nD) (w : Fin cfg4.W) :
    W12 m c (Proc.devRef .tc (Pipeline.arrRef spec4 w)) = (dat4 (E11 m) c).arrAt w cfg4.N :=
  Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) :=
  Pipeline.withArrays_of_ne spec4 c _ _ b hb
abbrev W13 : Dev nD → Valuation τ sig (Elt F) := fun c => StableHlo.after hostOps5 (W12 m c)
abbrev E13 : (c : Dev nD) → (b : Ref sig .tc) → Buf (Elt F) ((c : Thread nD τ).loc b) := fun c b => W13 m c b
def W14 (c : Dev nD) : Valuation τ sig (Elt F) :=
  Pipeline.withArrays spec5 c (W13 m c) fun w => (dat5 (E13 m) c).arrAt w cfg5.N
theorem W14_arr (c : Dev nD) (w : Fin cfg5.W) :
    W14 m c (Proc.devRef .tc (Pipeline.arrRef spec5 w)) = (dat5 (E13 m) c).arrAt w cfg5.N :=
  Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) :=
  Pipeline.withArrays_of_ne spec5 c _ _ b hb
abbrev W15 : Dev nD → Valuation τ sig (Elt F) := fun c => StableHlo.after hostOps6 (W14 m c)
abbrev E15 : (c : Dev nD) → (b : Ref sig .tc) → Buf (Elt F) ((c : Thread nD τ).loc b) := fun c b => W15 m c b
def W16 (c : Dev nD) : Valuation τ sig (Elt F) :=
  Pipeline.withArrays spec6 c (W15 m c) fun w => (dat6 (E15 m) c).arrAt w cfg6.N
theorem W16_arr (c : Dev nD) (w : Fin cfg6.W) :
    W16 m c (Proc.devRef .tc (Pipeline.arrRef spec6 w)) = (dat6 (E15 m) c).arrAt w cfg6.N :=
  Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) :=
  Pipeline.withArrays_of_ne spec6 c _ _ b hb
abbrev W17 : Dev nD → Valuation τ sig (Elt F) := fun c => StableHlo.after hostOps7 (W16 m c)
abbrev E17 : (c : Dev nD) → (b : Ref sig .tc) → Buf (Elt F) ((c : Thread nD τ).loc b) := fun c b => W17 m c b
def W18 (c : Dev nD) : Valuation τ sig (Elt F) :=
  Pipeline.withArrays spec7 c (W17 m c) fun w => (dat7 (E17 m) c).arrAt w cfg7.N
theorem W18_arr (c : Dev nD) (w : Fin cfg7.W) :
    W18 m c (Proc.devRef .tc (Pipeline.arrRef spec7 w)) = (dat7 (E17 m) c).arrAt w cfg7.N :=
  Pipeline.withArrays_arr spec7 launch7.win.arr_inj c _ _ w
theorem W18_of_ne (c : Dev nD) (b : Ref sig .tc) (hb : ∀ w, Pipeline.arrRef spec7 w ≠ b) :
    W18 m c (Proc.devRef .tc b) = W17 m c (Proc.devRef .tc b) :=
  Pipeline.withArrays_of_ne spec7 c _ _ b hb
abbrev W19 : Dev nD → Valuation τ sig (Elt F) := fun c => StableHlo.after hostOps8 (W18 m c)
def pdats : (p : Fin 8) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
  | ⟨3, _⟩ => fun c => dat3 (E9 m) c
  | ⟨4, _⟩ => fun c => dat4 (E11 m) c
  | ⟨5, _⟩ => fun c => dat5 (E13 m) c
  | ⟨6, _⟩ => fun c => dat6 (E15 m) c
  | ⟨7, _⟩ => fun c => dat7 (E17 m) c
abbrev 𝒱₀ : Variants := Variants.none
abbrev L : GSem nD τ sig → Finset Unit := fun _ => ∅
abbrev lv : GSem nD τ sig → Unit → ℕ := fun _ _ => 0
-- What every item of the program leaves as it found it.
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m c) ∗ ∃ r, prngReg c r)

-- The eight regions are one construction: they differ in the region number, in the contents before and after, and in the two ends of the invariant.
def regOf (p : Fin 8) (kit : Pipeline.LaunchFacts (nD := nD) (τ := τ) cfgs p) (V V' : Dev nD → Valuation τ sig (Elt F))
    (hbody : ∀ c, BodyObligation (pdats m p c) defs₀ Variants.none () Set.univ)
    (hV' : ∀ c, V' c = Pipeline.withArrays (cfgs p).spec c (V c) fun w => (pdats m p c).arrAt w (cfgs p).N := by exact fun _ => rfl)
    (hA : ∀ c w, (pdats m p c).A w = V c (Proc.devRef .tc (Pipeline.arrRef (cfgs p).spec w)) := by exact fun _ _ => rfl)
    (hq : ∀ c w, (pdats m p c).q w = fullShare := by exact fun _ _ => rfl)
    (howed : ∀ c t, (pdats m p c).owed t = 0 := by exact fun _ _ => rfl)
    (hrec : ∀ c x, x ∈ (pdats m p c).recorded 0 := by exact fun _ _ => trivial)
    (hΦ₀ : ∀ c, (Pipeline.ΦA (cfgs p).spec c : sProp 𝕄) ⊢ (pdats m p c).Φ 0 := by exact fun _ => .rfl)
    (hΦₙ : ∀ c, (pdats m p c).Φ (Fin.last _) ⊢ (Pipeline.ΦA (cfgs p).spec c : sProp 𝕄) := by exact fun _ => .rfl) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) kit.win kit.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine .trans ?_ (hΦ₀ c); unfold Pipeline.ΦA
    iintro ⟨Hp, -, Hr⟩
    isplitl [Hr]; · iexact Hr
    iexact Hp
  hout c := by
    rw [Pipeline.ownSems0_none]; refine (hΦₙ c).trans ?_; unfold Pipeline.ΦA
    iintro ⟨Hr, Hp⟩
    isplitl [Hp]; · iexact Hp
    isplitr; · iempintro
    iexact Hr
  hexit c := by
    have hF : ∀ w, (pdats m p c).arrAt w (cfgs p).N = V' c (Proc.devRef .tc (Pipeline.arrRef (cfgs p).spec w)) := fun w => by
      rw [hV' c, Pipeline.withArrays_arr _ kit.win.arr_inj]
    have hrest : ∀ b, b ∉ Finset.univ.image (Pipeline.arrRef (cfgs p).spec) → V' c (Proc.devRef .tc b) = V c (Proc.devRef .tc b) :=
      fun b hb => by
        rw [hV' c]; exact Pipeline.withArrays_of_ne _ c _ _ b fun w e => hb (Finset.mem_image.mpr ⟨w, Finset.mem_univ _, e⟩)
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (fun b => V c b) (fun b => V' c b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱₀ L lv 0 :=
  regOf m 0 launch0 (W3 m) (W4 m) (body_obligation0 (E3 m))
def reg1 : Pipeline.RegionSeg (pcfgs (F := F)) adm (pdats m) () defs₀ 𝒱₀ L lv 1 :=
  regOf m 1 launch1 (W5 m) (W6 m) (body_obligation1 (E5 m))
def reg2 : Pipeline.RegionSeg (pcfgs (F := F)) adm (pdats m) () defs₀ 𝒱₀ L lv 2 :=
  regOf m 2 launch2 (W7 m) (W8 m) (body_obligation2 (E7 m))
def reg3 : Pipeline.RegionSeg (pcfgs (F := F)) adm (pdats m) () defs₀ 𝒱₀ L lv 3 :=
  regOf m 3 launch3 (W9 m) (W10 m) (body_obligation3 (E9 m))
def reg4 : Pipeline.RegionSeg (pcfgs (F := F)) adm (pdats m) () defs₀ 𝒱₀ L lv 4 :=
  regOf m 4 launch4 (W11 m) (W12 m) (body_obligation4 (E11 m))
def reg5 : Pipeline.RegionSeg (pcfgs (F := F)) adm (pdats m) () defs₀ 𝒱₀ L lv 5 :=
  regOf m 5 launch5 (W13 m) (W14 m) (body_obligation5 (E13 m))
def reg6 : Pipeline.RegionSeg (pcfgs (F := F)) adm (pdats m) () defs₀ 𝒱₀ L lv 6 :=
  regOf m 6 launch6 (W15 m) (W16 m) (body_obligation6 (E15 m))
def reg7 : Pipeline.RegionSeg (pcfgs (F := F)) adm (pdats m) () defs₀ 𝒱₀ L lv 7 :=
  regOf m 7 launch7 (W17 m) (W18 m) (body_obligation7 (E17 m)) (hΦ₀ := Φ7_first (E17 m)) (hΦₙ := Φ7_last (E17 m))

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)),
    .region (reg7 m),
    .host (hseg hostOps8 hostOps8_sub hostOps8_fresh (W18 m)) ]

theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun _ h => h)

-- One chain of equalities serves all eight arguments; region 0's step is left to the caller, argument 0 being one of its inputs.
theorem W19_keep (c : Dev nD) (b : Ref sig .tc)
    (h : b ∉ hostOps8_W ∧ (∀ w, Pipeline.arrRef spec7 w ≠ b) ∧ b ∉ hostOps7_W ∧ (∀ w, Pipeline.arrRef spec6 w ≠ b)
      ∧ b ∉ hostOps6_W ∧ (∀ w, Pipeline.arrRef spec5 w ≠ b) ∧ b ∉ hostOps5_W ∧ (∀ w, Pipeline.arrRef spec4 w ≠ b)
      ∧ b ∉ hostOps4_W ∧ (∀ w, Pipeline.arrRef spec3 w ≠ b) ∧ b ∉ hostOps3_W ∧ (∀ w, Pipeline.arrRef spec2 w ≠ b)
      ∧ b ∉ hostOps2_W ∧ (∀ w, Pipeline.arrRef spec1 w ≠ b) ∧ b ∉ hostOps1_W ∧ b ∉ hostOps0_2_W ∧ b ∉ hostOps0_1_W ∧ b ∉ hostOps0_W)
    (h0 : W4 m c (Proc.devRef .tc b) = W3 m c (Proc.devRef .tc b)) :
    W19 m c (Proc.devRef .tc b) = m ((c : Thread nD τ).loc b) := by
  obtain ⟨a8, r7, a7, r6, a6, r5, a5, r4, a4, r3, a3, r2, a2, r1, a1, a02, a01, a00⟩ := h
  calc W19 m c (Proc.devRef .tc b)
    _ = W18 m c (Proc.devRef .tc b) := StableHlo.after_of_writes_sub hostOps8 _ hostOps8_writes a8
    _ = W17 m c (Proc.devRef .tc b) := W18_of_ne m c b r7
    _ = W16 m c (Proc.devRef .tc b) := StableHlo.after_of_writes_sub hostOps7 _ hostOps7_writes a7
    _ = W15 m c (Proc.devRef .tc b) := W16_of_ne m c b r6
    _ = W14 m c (Proc.devRef .tc b) := StableHlo.after_of_writes_sub hostOps6 _ hostOps6_writes a6
    _ = W13 m c (Proc.devRef .tc b) := W14_of_ne m c b r5
    _ = W12 m c (Proc.devRef .tc b) := StableHlo.after_of_writes_sub hostOps5 _ hostOps5_writes a5
    _ = W11 m c (Proc.devRef .tc b) := W12_of_ne m c b r4
    _ = W10 m c (Proc.devRef .tc b) := StableHlo.after_of_writes_sub hostOps4 _ hostOps4_writes a4
    _ = W9 m c (Proc.devRef .tc b) := W10_of_ne m c b r3
    _ = W8 m c (Proc.devRef .tc b) := StableHlo.after_of_writes_sub hostOps3 _ hostOps3_writes a3
    _ = W7 m c (Proc.devRef .tc b) := W8_of_ne m c b r2
    _ = W6 m c (Proc.devRef .tc b) := StableHlo.after_of_writes_sub hostOps2 _ hostOps2_writes a2
    _ = W5 m c (Proc.devRef .tc b) := W6_of_ne m c b r1
    _ = W4 m c (Proc.devRef .tc b) := StableHlo.after_of_writes_sub hostOps1 _ hostOps1_writes a1
    _ = W3 m c (Proc.devRef .tc b) := h0
    _ = W2 m c (Proc.devRef .tc b) := StableHlo.after_of_writes_sub hostOps0_2 _ hostOps0_2_writes a02
    _ = W1 m c (Proc.devRef .tc b) := StableHlo.after_of_writes_sub hostOps0_1 _ hostOps0_1_writes a01
    _ = W0 m c (Proc.devRef .tc b) := StableHlo.after_of_writes_sub hostOps0 _ hostOps0_writes a00
    _ = m ((c : Thread nD τ).loc b) := rfl
theorem W19_main_arg0 (c : Dev nD) : W19 m c (Proc.devRef .tc main_arg0) = m ((c : Thread nD τ).loc main_arg0) :=
  W19_keep m c _ (by decide) ((W4_arr m c 1).trans (((dat0 (E3 m) c).arrAt_in 1 rfl _).trans (A_eq0 (E3 m) c 1)))
theorem W19_main_arg1 (c : Dev nD) : W19 m c (Proc.devRef .tc main_arg1) = m ((c : Thread nD τ).loc main_arg1) :=
  W19_keep m c _ (by decide) (W4_of_ne m c _ (by decide))
theorem W19_main_arg2 (c : Dev nD) : W19 m c (Proc.devRef .tc main_arg2) = m ((c : Thread nD τ).loc main_arg2) :=
  W19_keep m c _ (by decide) (W4_of_ne m c _ (by decide))
theorem W19_main_arg3 (c : Dev nD) : W19 m c (Proc.devRef .tc main_arg3) = m ((c : Thread nD τ).loc main_arg3) :=
  W19_keep m c _ (by decide) (W4_of_ne m c _ (by decide))
theorem W19_main_arg4 (c : Dev nD) : W19 m c (Proc.devRef .tc main_arg4) = m ((c : Thread nD τ).loc main_arg4) :=
  W19_keep m c _ (by decide) (W4_of_ne m c _ (by decide))
theorem W19_main_arg5 (c : Dev nD) : W19 m c (Proc.devRef .tc main_arg5) = m ((c : Thread nD τ).loc main_arg5) :=
  W19_keep m c _ (by decide) (W4_of_ne m c _ (by decide))
theorem W19_main_arg6 (c : Dev nD) : W19 m c (Proc.devRef .tc main_arg6) = m ((c : Thread nD τ).loc main_arg6) :=
  W19_keep m c _ (by decide) (W4_of_ne m c _ (by decide))
theorem W19_main_arg7 (c : Dev nD) : W19 m c (Proc.devRef .tc main_arg7) = m ((c : Thread nD τ).loc main_arg7) :=
  W19_keep m c _ (by decide) (W4_of_ne m c _ (by decide))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W19_main_arg0 m c),
      (h c _ (mem_uc main_arg1 (by decide))).trans (W19_main_arg1 m c),
      (h c _ (mem_uc main_arg2 (by decide))).trans (W19_main_arg2 m c),
      (h c _ (mem_uc main_arg3 (by decide))).trans (W19_main_arg3 m c),
      (h c _ (mem_uc main_arg4 (by decide))).trans (W19_main_arg4 m c),
      (h c _ (mem_uc main_arg5 (by decide))).trans (W19_main_arg5 m c),
      (h c _ (mem_uc main_arg6 (by decide))).trans (W19_main_arg6 m c),
      (h c _ (mem_uc main_arg7 (by decide))).trans (W19_main_arg7 m c)⟩) (run_all m ρ)

end Cert.Kernel.Hand

end
-- ==== Proof.KI.Sage0.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0
abbrev r0_c : Rect S1x128 := Rect.unit (s := S1x128) ![0, 0] S1x128.size inb_S1x128_S1x128_0_0

-- What the body leaves in the output block: its one payload, laid over the whole block.
def out0_5 (x0 x1 : Vec F S5000x128 .f32) (x2 x3 : Vec F S128x128 .f32) (x4 : Vec F S1x128 .f32) : Vec F S5000x128 .f32 :=
  View.canon [⟨r0_a, k0_pay1 (View.ld x0 r0_a) (View.ld x1 r0_a) (View.ld x2 r0_b) (View.ld x3 r0_b) (View.ld x4 r0_c)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

-- The body leaves each input block as it was, so every point finds it at the contents V.
theorem before0 (c : Dev nD) (t : Fin cfg0.N) : ∀ w : Fin cfg0.W, w.1 < 5 → ∀ d, (dat0 V c).before w t d = (dat0 V c).fetched w t d
  | ⟨0, _⟩, _, d | ⟨1, _⟩, _, d | ⟨2, _⟩, _, d | ⟨3, _⟩, _, d | ⟨4, _⟩, _, d =>
    (dat0 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation0 (c : Dev nD) : BodyObligation (dat0 (F := F) V c) (defs₀ (F := F)) Variants.none () Set.univ := fun t => by
  rw [bigSep_W0, bigSep_W0]
  show iprop(_ ∗ _ ∗ (∃ d, _) ∗ (∃ d, _) ∗ (∃ d, _) ∗ (∃ d, _) ∗ (∃ d, _) ∗ ∃ d, _) ⊢ wp _ _ _ (bodyAt0 t) fun _ => iprop(_ ∗ _ ∗ owns _ _ _ _ ∗ owns _ _ _ _ ∗ owns _ _ _ _ ∗ owns _ _ _ _ ∗ owns _ _ _ _ ∗ owns _ _ _ _)
  simp (disch := decide) only [before0 V c t]
  dsimp only [dat0]
  unfold bodyAt0 owns
  simp only [cc0__sage_kernel_eq_skeleton]; unfold cc0__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk0 V c 0 t from h0, ← show _ = iblk0 V c 1 t from h1, ← show _ = iblk0 V c 2 t from h2, ← show _ = iblk0 V c 3 t from h3, ← show _ = iblk0 V c 4 t from h4]
  exact View.read_writes_eq_canon _ _ _ (View.cover_of_tiled _ S5000x128.size (by rfl))

end Cert.KernelIdeal.Hand

end
-- ==== Proof.KI.Sage1.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_b : Rect S128x128 := Rect.unit (s := S128x128) ![0, 0] S128x128.size inb_S128x128_S128x128_0_0
abbrev r1_c : Rect S1x128 := Rect.unit (s := S1x128) ![0, 0] S1x128.size inb_S1x128_S1x128_0_0

-- What the body leaves in the output block: its one payload, laid over the whole block.
def out1_5 (x0 x1 : Vec F S5000x128 .f32) (x2 x3 : Vec F S128x128 .f32) (x4 : Vec F S1x128 .f32) : Vec F S5000x128 .f32 :=
  View.canon [⟨r1_a, k1_pay1 (View.ld x0 r1_a) (View.ld x1 r1_a) (View.ld x2 r1_b) (View.ld x3 r1_b) (View.ld x4 r1_c)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

-- The body leaves each input block as it was, so every point finds it at the contents V.
theorem before1 (c : Dev nD) (t : Fin cfg1.N) : ∀ w : Fin cfg1.W, w.1 < 5 → ∀ d, (dat1 V c).before w t d = (dat1 V c).fetched w t d
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation1 (c : Dev nD) : BodyObligation (dat1 (F := F) V c) (defs₀ (F := F)) Variants.none () Set.univ := fun t => by
  rw [bigSep_W1, bigSep_W1]
  show iprop(_ ∗ _ ∗ (∃ d, _) ∗ (∃ d, _) ∗ (∃ d, _) ∗ (∃ d, _) ∗ (∃ d, _) ∗ ∃ d, _) ⊢ wp _ _ _ (bodyAt1 t) fun _ => iprop(_ ∗ _ ∗ owns _ _ _ _ ∗ owns _ _ _ _ ∗ owns _ _ _ _ ∗ owns _ _ _ _ ∗ owns _ _ _ _ ∗ owns _ _ _ _)
  simp (disch := decide) only [before1 V c t]
  dsimp only [dat1]
  unfold bodyAt1 owns
  simp only [cc1__sage_kernel_eq_skeleton]; unfold cc1__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk1 V c 0 t from h0, ← show _ = iblk1 V c 1 t from h1, ← show _ = iblk1 V c 2 t from h2, ← show _ = iblk1 V c 3 t from h3, ← show _ = iblk1 V c 4 t from h4]
  exact View.read_writes_eq_canon _ _ _ (View.cover_of_tiled _ S5000x128.size (by rfl))

end Cert.KernelIdeal.Hand

end
-- ==== Proof.KI.Sage2.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x128 := Rect.unit (s := S5000x128) ![0, 0] S5000x128.size inb_S5000x128_S5000x128_0_0
abbrev r2_b : Rect S128x128 := Rect.unit (s := S128x128) ![0, 0] S128x128.size inb_S128x128_S128x128_0_0
abbrev r2_c : Rect S1x128 := Rect.unit (s := S1x128) ![0, 0] S1x128.size inb_S1x128_S1x128_0_0

-- What the body leaves in the output block: its one payload, laid over the whole block.
def out2_5 (x0 x1 : Vec F S5000x128 .f32) (x2 x3 : Vec F S128x128 .f32) (x4 : Vec F S1x128 .f32) : Vec F S5000x128 .f32 :=
  View.canon [⟨r2_a, k2_pay1 (View.ld x0 r2_a) (View.ld x1 r2_a) (View.ld x2 r2_b) (View.ld x3 r2_b) (View.ld x4 r2_c)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

-- The body leaves each input block as it was, so every point finds it at the contents V.
theorem before2 (c : Dev nD) (t : Fin cfg2.N) : ∀ w : Fin cfg2.W, w.1 < 5 → ∀ d, (dat2 V c).before w t d = (dat2 V c).fetched w t d
  | ⟨0, _⟩, _, d | ⟨1, _⟩, _, d | ⟨2, _⟩, _, d | ⟨3, _⟩, _, d | ⟨4, _⟩, _, d =>
    (dat2 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation2 (c : Dev nD) : BodyObligation (dat2 (F := F) V c) (defs₀ (F := F)) Variants.none () Set.univ := fun t => by
  rw [bigSep_W2, bigSep_W2]
  show iprop(_ ∗ _ ∗ (∃ d, _) ∗ (∃ d, _) ∗ (∃ d, _) ∗ (∃ d, _) ∗ (∃ d, _) ∗ ∃ d, _) ⊢ wp _ _ _ (bodyAt2 t) fun _ => iprop(_ ∗ _ ∗ owns _ _ _ _ ∗ owns _ _ _ _ ∗ owns _ _ _ _ ∗ owns _ _ _ _ ∗ owns _ _ _ _ ∗ owns _ _ _ _)
  simp (disch := decide) only [before2 V c t]
  dsimp only [dat2]
  unfold bodyAt2 owns
  simp only [cc2__sage_kernel_eq_skeleton]; unfold cc2__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk2 V c 0 t from h0, ← show _ = iblk2 V c 1 t from h1, ← show _ = iblk2 V c 2 t from h2, ← show _ = iblk2 V c 3 t from h3, ← show _ = iblk2 V c 4 t from h4]
  exact View.read_writes_eq_canon _ _ _ (View.cover_of_tiled _ S5000x128.size (by rfl))

end Cert.KernelIdeal.Hand

end
-- ==== Proof.KI.Sage3.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x128 := Rect.unit (s := S5000x128) ![0, 0] S5000x128.size inb_S5000x128_S5000x128_0_0
abbrev r3_b : Rect S128x128 := Rect.unit (s := S128x128) ![0, 0] S128x128.size inb_S128x128_S128x128_0_0
abbrev r3_c : Rect S1x128 := Rect.unit (s := S1x128) ![0, 0] S1x128.size inb_S1x128_S1x128_0_0

-- What the body leaves in the output block: its one payload, laid over the whole block.
def out3_5 (x0 x1 : Vec F S5000x128 .f32) (x2 x3 : Vec F S128x128 .f32) (x4 : Vec F S1x128 .f32) : Vec F S5000x128 .f32 :=
  View.canon [⟨r3_a, k3_pay1 (View.ld x0 r3_a) (View.ld x1 r3_a) (View.ld x2 r3_b) (View.ld x3 r3_b) (View.ld x4 r3_c)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

-- The body leaves each input block as it was, so every point finds it at the contents V.
theorem before3 (c : Dev nD) (t : Fin cfg3.N) : ∀ w : Fin cfg3.W, w.1 < 5 → ∀ d, (dat3 V c).before w t d = (dat3 V c).fetched w t d
  | ⟨0, _⟩, _, d | ⟨1, _⟩, _, d | ⟨2, _⟩, _, d | ⟨3, _⟩, _, d | ⟨4, _⟩, _, d =>
    (dat3 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation3 (c : Dev nD) : BodyObligation (dat3 (F := F) V c) (defs₀ (F := F)) Variants.none () Set.univ := fun t => by
  rw [bigSep_W3, bigSep_W3]
  show iprop(_ ∗ _ ∗ (∃ d, _) ∗ (∃ d, _) ∗ (∃ d, _) ∗ (∃ d, _) ∗ (∃ d, _) ∗ ∃ d, _) ⊢ wp _ _ _ (bodyAt3 t) fun _ => iprop(_ ∗ _ ∗ owns _ _ _ _ ∗ owns _ _ _ _ ∗ owns _ _ _ _ ∗ owns _ _ _ _ ∗ owns _ _ _ _ ∗ owns _ _ _ _)
  simp (disch := decide) only [before3 V c t]
  dsimp only [dat3]
  unfold bodyAt3 owns
  simp only [cc3__sage_kernel_eq_skeleton]; unfold cc3__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk3 V c 0 t from h0, ← show _ = iblk3 V c 1 t from h1, ← show _ = iblk3 V c 2 t from h2, ← show _ = iblk3 V c 3 t from h3, ← show _ = iblk3 V c 4 t from h4]
  exact View.read_writes_eq_canon _ _ _ (View.cover_of_tiled _ S5000x128.size (by rfl))

end Cert.KernelIdeal.Hand

end
-- ==== Proof.KI.Sage4.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S5000x128 := Rect.unit (s := S5000x128) ![0, 0] S5000x128.size inb_S5000x128_S5000x128_0_0
abbrev r4_b : Rect S128x128 := Rect.unit (s := S128x128) ![0, 0] S128x128.size inb_S128x128_S128x128_0_0
abbrev r4_c : Rect S1x128 := Rect.unit (s := S1x128) ![0, 0] S1x128.size inb_S1x128_S1x128_0_0

-- What the body leaves in the output block: its one payload, laid over the whole block.
def out4_5 (x0 x1 : Vec F S5000x128 .f32) (x2 x3 : Vec F S128x128 .f32) (x4 : Vec F S1x128 .f32) : Vec F S5000x128 .f32 :=
  View.canon [⟨r4_a, k4_pay1 (View.ld x0 r4_a) (View.ld x1 r4_a) (View.ld x2 r4_b) (View.ld x3 r4_b) (View.ld x4 r4_c)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

-- The body leaves each input block as it was, so every point finds it at the contents V.
theorem before4 (c : Dev nD) (t : Fin cfg4.N) : ∀ w : Fin cfg4.W, w.1 < 5 → ∀ d, (dat4 V c).before w t d = (dat4 V c).fetched w t d
  | ⟨0, _⟩, _, d | ⟨1, _⟩, _, d | ⟨2, _⟩, _, d | ⟨3, _⟩, _, d | ⟨4, _⟩, _, d =>
    (dat4 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation4 (c : Dev nD) : BodyObligation (dat4 (F := F) V c) (defs₀ (F := F)) Variants.none () Set.univ := fun t => by
  rw [bigSep_W4, bigSep_W4]
  show iprop(_ ∗ _ ∗ (∃ d, _) ∗ (∃ d, _) ∗ (∃ d, _) ∗ (∃ d, _) ∗ (∃ d, _) ∗ ∃ d, _) ⊢ wp _ _ _ (bodyAt4 t) fun _ => iprop(_ ∗ _ ∗ owns _ _ _ _ ∗ owns _ _ _ _ ∗ owns _ _ _ _ ∗ owns _ _ _ _ ∗ owns _ _ _ _ ∗ owns _ _ _ _)
  simp (disch := decide) only [before4 V c t]
  dsimp only [dat4]
  unfold bodyAt4 owns
  simp only [cc4__sage_kernel_eq_skeleton]; unfold cc4__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk4 V c 0 t from h0, ← show _ = iblk4 V c 1 t from h1, ← show _ = iblk4 V c 2 t from h2, ← show _ = iblk4 V c 3 t from h3, ← show _ = iblk4 V c 4 t from h4]
  exact View.read_writes_eq_canon _ _ _ (View.cover_of_tiled _ S5000x128.size (by rfl))

end Cert.KernelIdeal.Hand

end
-- ==== Proof.KI.Sage5.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x128 := Rect.unit (s := S5000x128) ![0, 0] S5000x128.size inb_S5000x128_S5000x128_0_0
abbrev r5_b : Rect S128x128 := Rect.unit (s := S128x128) ![0, 0] S128x128.size inb_S128x128_S128x128_0_0
abbrev r5_c : Rect S1x128 := Rect.unit (s := S1x128) ![0, 0] S1x128.size inb_S1x128_S1x128_0_0

-- What the body leaves in the output block: its one payload, laid over the whole block.
def out5_5 (x0 x1 : Vec F S5000x128 .f32) (x2 x3 : Vec F S128x128 .f32) (x4 : Vec F S1x128 .f32) : Vec F S5000x128 .f32 :=
  View.canon [⟨r5_a, k5_pay1 (View.ld x0 r5_a) (View.ld x1 r5_a) (View.ld x2 r5_b) (View.ld x3 r5_b) (View.ld x4 r5_c)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

-- The body leaves each input block as it was, so every point finds it at the contents V.
theorem before5 (c : Dev nD) (t : Fin cfg5.N) : ∀ w : Fin cfg5.W, w.1 < 5 → ∀ d, (dat5 V c).before w t d = (dat5 V c).fetched w t d
  | ⟨0, _⟩, _, d | ⟨1, _⟩, _, d | ⟨2, _⟩, _, d | ⟨3, _⟩, _, d | ⟨4, _⟩, _, d =>
    (dat5 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation5 (c : Dev nD) : BodyObligation (dat5 (F := F) V c) (defs₀ (F := F)) Variants.none () Set.univ := fun t => by
  rw [bigSep_W5, bigSep_W5]
  show iprop(_ ∗ _ ∗ (∃ d, _) ∗ (∃ d, _) ∗ (∃ d, _) ∗ (∃ d, _) ∗ (∃ d, _) ∗ ∃ d, _) ⊢ wp _ _ _ (bodyAt5 t) fun _ => iprop(_ ∗ _ ∗ owns _ _ _ _ ∗ owns _ _ _ _ ∗ owns _ _ _ _ ∗ owns _ _ _ _ ∗ owns _ _ _ _ ∗ owns _ _ _ _)
  simp (disch := decide) only [before5 V c t]
  dsimp only [dat5]
  unfold bodyAt5 owns
  simp only [cc5__sage_kernel_eq_skeleton]; unfold cc5__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk5 V c 0 t from h0, ← show _ = iblk5 V c 1 t from h1, ← show _ = iblk5 V c 2 t from h2, ← show _ = iblk5 V c 3 t from h3, ← show _ = iblk5 V c 4 t from h4]
  exact View.read_writes_eq_canon _ _ _ (View.cover_of_tiled _ S5000x128.size (by rfl))

end Cert.KernelIdeal.Hand

end
-- ==== Proof.KI.Sage6.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- The block of array w that point t works on, read at the contents V.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_a : Rect S5000x128 := Rect.unit (s := S5000x128) ![0, 0] S5000x128.size inb_S5000x128_S5000x128_0_0
abbrev r6_b : Rect S128x128 := Rect.unit (s := S128x128) ![0, 0] S128x128.size inb_S128x128_S128x128_0_0
abbrev r6_c : Rect S1x128 := Rect.unit (s := S1x128) ![0, 0] S1x128.size inb_S1x128_S1x128_0_0

-- What the body leaves in the output block: its one payload, laid over the whole block.
def out6_5 (x0 x1 : Vec F S5000x128 .f32) (x2 x3 : Vec F S128x128 .f32) (x4 : Vec F S1x128 .f32) : Vec F S5000x128 .f32 :=
  View.canon [⟨r6_a, k6_pay1 (View.ld x0 r6_a) (View.ld x1 r6_a) (View.ld x2 r6_b) (View.ld x3 r6_b) (View.ld x4 r6_c)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl

theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

-- The body leaves each input block as it was, so every point finds it at the contents V.
theorem before6 (c : Dev nD) (t : Fin cfg6.N) : ∀ w : Fin cfg6.W, w.1 < 5 → ∀ d, (dat6 V c).before w t d = (dat6 V c).fetched w t d
  | ⟨0, _⟩, _, d | ⟨1, _⟩, _, d | ⟨2, _⟩, _, d | ⟨3, _⟩, _, d | ⟨4, _⟩, _, d =>
    (dat6 V c).before_in_eq_fetched _ rfl (fun _ => rfl) (fun _ _ _ => rfl) (fun _ => rfl) t d
  | ⟨_ + 5, _⟩, h, _ => absurd h (Nat.not_lt.2 (Nat.le_add_left _ _))

-- The body reads the five input blocks and overwrites the whole output block with its payload.
theorem body_obligation6 (c : Dev nD) : BodyObligation (dat6 (F := F) V c) (defs₀ (F := F)) Variants.none () Set.univ := fun t => by
  rw [bigSep_W6, bigSep_W6]
  show iprop(_ ∗ _ ∗ (∃ d, _) ∗ (∃ d, _) ∗ (∃ d, _) ∗ (∃ d, _) ∗ (∃ d, _) ∗ ∃ d, _) ⊢ wp _ _ _ (bodyAt6 t) fun _ => iprop(_ ∗ _ ∗ owns _ _ _ _ ∗ owns _ _ _ _ ∗ owns _ _ _ _ ∗ owns _ _ _ _ ∗ owns _ _ _ _ ∗ owns _ _ _ _)
  simp (disch := decide) only [before6 V c t]
  dsimp only [dat6]
  unfold bodyAt6 owns
  simp only [cc6__sage_kernel_eq_skeleton]; unfold cc6__sage_kernel_skel
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]; · iexists f0; iframe H0; ipureintro; exact h0
  isplitl [H1]; · iexists f1; iframe H1; ipureintro; exact h1
  isplitl [H2]; · iexists f2; iframe H2; ipureintro; exact h2
  isplitl [H3]; · iexists f3; iframe H3; ipureintro; exact h3
  isplitl [H4]; · iexists f4; iframe H4; ipureintro; exact h4
  iexists _; isplitr; swap; · iexact H5
  ipureintro; rw [← show _ = iblk6 V c 0 t from h0, ← show _ = iblk6 V c 1 t from h1, ← show _ = iblk6 V c 2 t from h2, ← show _ = iblk6 V c 3 t from h3, ← show _ = iblk6 V c 4 t from h4]
  exact View.read_writes_eq_canon _ _ _ (View.cover_of_tiled _ S5000x128.size (by rfl))

end Cert.KernelIdeal.Hand

end
-- ==== Proof.KI.PoolDefs.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S512x128 .f32
  | 0, h => k7_pay2 (iblk7 V c 0 ⟨0, h⟩) (iblk7 V c 1 ⟨0, h⟩) (k7_pay1 (F := F))
  | n + 1, h => k7_pay2 (iblk7 V c 0 ⟨n + 1, h⟩) (iblk7 V c 1 ⟨n + 1, h⟩) (acc7 c n (Nat.lt_of_succ_lt h))

theorem acc7_zero (c : Dev nD) (h : 0 < cfg7.N) :
    acc7 V c 0 h = k7_pay2 (iblk7 V c 0 ⟨0, h⟩) (iblk7 V c 1 ⟨0, h⟩) (k7_pay1 (F := F)) := rfl

theorem acc7_succ (c : Dev nD) (n : ℕ) (h : n + 1 < cfg7.N) :
    acc7 V c (n + 1) h = k7_pay2 (iblk7 V c 0 ⟨n + 1, h⟩) (iblk7 V c 1 ⟨n + 1, h⟩) (acc7 V c n (Nat.lt_of_succ_lt h)) := rfl

end Cert.KernelIdeal.Hand

end
-- ==== Proof.KI.Pool.lean ====
import proofs.«422910_j59356448031328_1_alg».proof.Proof.Gen.KernelIdeal.Launch
import proofs.«422910_j59356448031328_1_alg».proof.Proof.Gen.KernelIdeal.Skeleton
import proofs.«422910_j59356448031328_1_alg».proof.Proof.Gen.KernelIdeal.Points
import proofs.«422910_j59356448031328_1_alg».proof.Proof.KI.PoolDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz7 : (![0, 0] : Fin 2 → Nat) = fun _ => 0 := funext fun a => by fin_cases a <;> rfl

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)

abbrev cond7_1 (i : grid7.Coords) : Prop := k7_cond2 i = 1#1
theorem hcond7_1 : ∀ t : Fin cfg7.N, cond7_1 (grid7.coords t) ↔ t.val = 9 :=
  (by decide +kernel : ∀ t : Fin grid7.N, cond7_1 (grid7.coords t) ↔ t.val = 9)

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

-- One step of the body: the accumulator restarts from zero where the first condition holds, gains the block's product, and is the output where the second holds.
set_option maxHeartbeats 4000000 in
theorem sound_kernel7 (c : Dev nD) (E : Set ℕ) (i : grid7.Coords) (arg1 : Memref sig .tc .vmem S5000x1 .i32) (harg1 : arg1.IsWhole) (arg2 : Memref sig .tc .vmem S5000x128 .f32) (harg2 : arg2.IsWhole) (arg3 : Memref sig .tc .vmem S512x128 .f32) (harg3 : arg3.IsWhole) (arg4 : Memref sig .tc .vmem S512x128 .f32) (harg4 : arg4.IsWhole)
    (x0 : Vec F S5000x1 .i32) (x1 : Vec F S5000x128 .f32) (xi xs y3 y4 : Vec F S512x128 .f32) (K : PUnit → sProp 𝕄)
    (h : ¬(cond7_0 i ∧ cond7_1 i)) (h3 : y3 = if cond7_1 i then k7_pay2 x0 x1 xs else xi)
    (h4 : y4 = k7_pay2 x0 x1 (if cond7_0 i then k7_pay1 (F := F) else xs)) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare y3 ∗ owns (c : Thread nD τ) arg4 fullShare y4) -∗ K ⟨⟩))
      ⊢ wp frame (wpE (defs₀ (F := F)) Variants.none c none) E (cc7__pool_kernel i arg1 harg1 arg2 harg2 arg3 harg3 arg4 harg4) K := by
  by_cases hc0 : cond7_0 i <;> by_cases hc1 : cond7_1 i
  · exact absurd ⟨hc0, hc1⟩ h
  all_goals
    first | rw [if_pos hc1] at h3 | rw [if_neg hc1] at h3
    first | rw [if_pos hc0] at h4 | rw [if_neg hc0] at h4
    subst h3 h4
    simp only [cc7__pool_kernel_eq_skeleton]; unfold cc7__pool_kernel_skel
    unfold owns
    iintro ⟨⟨%f0, %hf0, H0⟩, ⟨%f1, %hf1, H1⟩, ⟨%f2, %hf2, H2⟩, ⟨%f3, %hf3, H3⟩, Hk⟩
    subst hf0 hf1 hf2 hf3
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
        | refine (View.read_writes_eq_canon _ _ _ (fun y => ⟨_, List.mem_cons.mpr (Or.inl rfl), View.mem_set_unit_zero hz7 inb_S512x128_S512x128_0_0 y⟩)).trans ?_
          rw [View.canon_cons_unit_zero hz7]
          sl_unfold_words
          simp only [View.readAt_eq_ld, View.readCov_unit_zero (S := S512x128) _ hz7, View.ld_unit_zero (S := S5000x1) hz7, View.ld_unit_zero (S := S5000x128) hz7, View.ld_unit_zero (S := S512x128) hz7]
        | rfl
    iexists _; isplitr
    swap; · iexact H3
    ipureintro
    refine (View.read_writes_eq_canon _ _ _ (fun y => ⟨_, List.mem_cons.mpr (Or.inl rfl), View.mem_set_unit_zero hz7 inb_S512x128_S512x128_0_0 y⟩)).trans ?_
    rw [View.canon_cons_unit_zero hz7]
    sl_unfold_words
    simp only [View.readAt_eq_ld, View.readCov_unit_zero (S := S512x128) _ hz7, View.ld_unit_zero (S := S5000x1) hz7, View.ld_unit_zero (S := S5000x128) hz7, View.ld_unit_zero (S := S512x128) hz7]

-- At point t an input's block is block t of its array.
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev sc7 : Memref sig .tc .vmem S512x128 .f32 := Memref.whole cc7_scratch0

def Phi7 (c : Dev nD) : (n : ℕ) → n ≤ cfg7.N → sProp 𝕄
  | 0, _ => iprop((∃ d, owns (c : Thread nD τ) sc7 fullShare d)
      ∗ Pipeline.scopedRestBut (Ix := Unit) (Name := ℕ) (U := UR sig nD τ) (Lvl := ℕ) (Val := Elt F) spec7 c [cc7_scratch0]
      ∗ (∃ r, prngReg c r))
  | n + 1, hn => iprop(owns (c : Thread nD τ) sc7 fullShare (acc7 V c n hn)
      ∗ Pipeline.scopedRestBut (Ix := Unit) (Name := ℕ) (U := UR sig nD τ) (Lvl := ℕ) (Val := Elt F) spec7 c [cc7_scratch0]
      ∗ (∃ r, prngReg c r))

theorem Phi7_zero (c : Dev nD) (n : ℕ) (h : n ≤ cfg7.N) (hz : n = 0) :
    Phi7 V c n h = iprop((∃ d, owns (c : Thread nD τ) sc7 fullShare d)
      ∗ Pipeline.scopedRestBut (Ix := Unit) (Name := ℕ) (U := UR sig nD τ) (Lvl := ℕ) (Val := Elt F) spec7 c [cc7_scratch0]
      ∗ (∃ r, prngReg c r)) := by
  subst hz; rfl

theorem Phi7_succ (c : Dev nD) (n : ℕ) (hn : n < cfg7.N) :
    Phi7 V c (n + 1) hn = iprop(owns (c : Thread nD τ) sc7 fullShare (acc7 V c n hn)
      ∗ Pipeline.scopedRestBut (Ix := Unit) (Name := ℕ) (U := UR sig nD τ) (Lvl := ℕ) (Val := Elt F) spec7 c [cc7_scratch0]
      ∗ (∃ r, prngReg c r)) := rfl

theorem Phi7_pos (c : Dev nD) (n : ℕ) (h : n ≤ cfg7.N) (hz : n ≠ 0) :
    Phi7 V c n h = iprop(owns (c : Thread nD τ) sc7 fullShare (acc7 V c (n - 1) (by omega))
      ∗ Pipeline.scopedRestBut (Ix := Unit) (Name := ℕ) (U := UR sig nD τ) (Lvl := ℕ) (Val := Elt F) spec7 c [cc7_scratch0]
      ∗ (∃ r, prngReg c r)) := by
  cases n with
  | zero => exact absurd rfl hz
  | succ n => rfl

theorem acc7_first (c : Dev nD) (t : Fin cfg7.N) (h0 : t.val = 0) :
    acc7 V c t.val t.isLt = k7_pay2 (iblk7 V c 0 t) (iblk7 V c 1 t) (k7_pay1 (F := F)) := by
  obtain ⟨n, hn⟩ := t
  cases n with
  | zero => exact acc7_zero V c hn
  | succ n => exact absurd h0 (Nat.succ_ne_zero n)

theorem acc7_pos (c : Dev nD) (t : Fin cfg7.N) (h0 : t.val ≠ 0) :
    acc7 V c t.val t.isLt = k7_pay2 (iblk7 V c 0 t) (iblk7 V c 1 t) (acc7 V c (t.val - 1) (Nat.lt_of_le_of_lt (Nat.sub_le _ _) t.isLt)) := by
  obtain ⟨n, hn⟩ := t
  cases n with
  | zero => exact absurd rfl h0
  | succ n => exact acc7_succ V c n hn

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = acc7 V c t.val t.isLt := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

theorem Phi7_castSucc (c : Dev nD) (t : Fin cfg7.N) :
    (dat7 V c).Φ t.castSucc = Phi7 V c t.val (Nat.le_of_lt t.isLt) := by
  dsimp only [dat7]; simp only [Fin.coe_castSucc]

theorem Φ7_first (c : Dev nD) : (Pipeline.ΦA spec7 c : sProp 𝕄) ⊢ (dat7 V c).Φ 0 := by
  rw [show (dat7 V c).Φ 0 = Phi7 V c 0 (Nat.zero_le _) from rfl, Phi7_zero V c 0 _ rfl]
  unfold Pipeline.ΦA; rw [scopedRest7_split]; simp only [sc7, owns_whole]
  iintro ⟨⟨HS, HR⟩, Hg⟩
  iframe

theorem Φ7_last (c : Dev nD) : (dat7 V c).Φ (Fin.last cfg7.N) ⊢ (Pipeline.ΦA spec7 c : sProp 𝕄) := by
  rw [show (dat7 V c).Φ (Fin.last cfg7.N) = Phi7 V c (Fin.last cfg7.N).val (Nat.le_of_lt_succ (Fin.last cfg7.N).isLt) from rfl,
    Phi7_pos V c _ _ (by rw [Fin.val_last]; have : cfg7.N = 10 := N_7; omega)]
  unfold Pipeline.ΦA; rw [scopedRest7_split]; simp only [sc7, owns_whole]
  iintro ⟨HS, HR, Hg⟩
  iframe
  iexists _; iexact HS

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

-- The grid position decides the two conditions; the invariant carries the accumulator from each point to the next.
set_option maxHeartbeats 4000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 10 := lt_of_lt_of_eq t.isLt (show cfg7.N = 10 from N_7)
  rw [Phi7_castSucc V c t]
  by_cases h1 : t.val = 9
  · have h0 : t.val ≠ 0 := by omega
    rw [show (dat7 V c).leavesExact 2 t = owns (c : Thread nD τ) (st7_2 t) fullShare ((dat7 V c).after 2 t) from by
      unfold Dat.leavesExact; rw [liveAt7_2 t ((hcond7_1 t).mpr h1)], after7_2]
    rw [Phi7_pos V c _ _ h0, acc7_pos V c t h0]
    iintro ⟨⟨HS, HR, Hg⟩, Ho, ⟨%d0, H0⟩, ⟨%d1, H1⟩, ⟨%d2, H2⟩⟩
    iapply (sound_kernel7 c Set.univ (grid7.coords t) _ _ _ _ _ _ _ _ (iblk7 V c 0 t) (iblk7 V c 1 t) ((dat7 V c).before 2 t d2) (acc7 V c (t.val - 1) (Nat.lt_of_le_of_lt (Nat.sub_le _ _) t.isLt)) _ _ _ (fun h => h0 ((hcond7_0 t).mp h.1)) (if_pos ((hcond7_1 t).mpr h1)).symm (congrArg (k7_pay2 _ _) (if_neg (fun h => h0 ((hcond7_0 t).mp h))).symm))
    iframe
    iintro ⟨H0, H1, H2, HS⟩
    iframe
  · rw [Dat.leavesExact_idle (dat7 V c) 2 t (idleAt7_2 t (fun h => h1 ((hcond7_1 t).mp h))) (noFlush7_2 t (fun h => h1 ((hcond7_1 t).mp h)))]
    by_cases h0 : t.val = 0
    · rw [Phi7_zero V c _ _ h0, acc7_first V c t h0]
      iintro ⟨⟨⟨%ds, HS⟩, HR, Hg⟩, Ho, ⟨%d0, H0⟩, ⟨%d1, H1⟩, ⟨%d2, H2⟩⟩
      iapply (sound_kernel7 c Set.univ (grid7.coords t) _ _ _ _ _ _ _ _ (iblk7 V c 0 t) (iblk7 V c 1 t) ((dat7 V c).before 2 t d2) ds _ _ _ (fun h => h1 ((hcond7_1 t).mp h.2)) (if_neg (fun h => h1 ((hcond7_1 t).mp h))).symm (congrArg (k7_pay2 _ _) (if_pos ((hcond7_0 t).mpr h0)).symm))
      iframe
      iintro ⟨H0, H1, H2, HS⟩
      iframe; iexists _; iexact H2
    · rw [Phi7_pos V c _ _ h0, acc7_pos V c t h0]
      iintro ⟨⟨HS, HR, Hg⟩, Ho, ⟨%d0, H0⟩, ⟨%d1, H1⟩, ⟨%d2, H2⟩⟩
      iapply (sound_kernel7 c Set.univ (grid7.coords t) _ _ _ _ _ _ _ _ (iblk7 V c 0 t) (iblk7 V c 1 t) ((dat7 V c).before 2 t d2) (acc7 V c (t.val - 1) (Nat.lt_of_le_of_lt (Nat.sub_le _ _) t.isLt)) _ _ _ (fun h => h1 ((hcond7_1 t).mp h.2)) (if_neg (fun h => h1 ((hcond7_1 t).mp h))).symm (congrArg (k7_pay2 _ _) (if_neg (fun h => h0 ((hcond7_0 t).mp h))).symm))
      iframe
      iintro ⟨H0, H1, H2, HS⟩
      iframe; iexists _; iexact H2

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Run.lean ====
import proofs.«422910_j59356448031328_1_alg».proof.Proof.KI.Sage0
import proofs.«422910_j59356448031328_1_alg».proof.Proof.KI.Sage1
import proofs.«422910_j59356448031328_1_alg».proof.Proof.KI.Sage2
import proofs.«422910_j59356448031328_1_alg».proof.Proof.KI.Sage3
import proofs.«422910_j59356448031328_1_alg».proof.Proof.KI.Sage4
import proofs.«422910_j59356448031328_1_alg».proof.Proof.KI.Sage5
import proofs.«422910_j59356448031328_1_alg».proof.Proof.KI.Sage6
import proofs.«422910_j59356448031328_1_alg».proof.Proof.KI.Pool
import proofs.«422910_j59356448031328_1_alg».proof.Proof.Gen.KernelIdeal.Regions
import Idealize.ShloMosaic.Lib.Pipeline.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev E3 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
abbrev W5 : Dev nD → Valuation τ sig (Elt F) := fun c => StableHlo.after hostOps1 (W4 m c)
abbrev E5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb
abbrev W7 : Dev nD → Valuation τ sig (Elt F) := fun c => StableHlo.after hostOps2 (W6 m c)
abbrev E7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb
abbrev W9 : Dev nD → Valuation τ sig (Elt F) := fun c => StableHlo.after hostOps3 (W8 m c)
abbrev E9 : (c : Dev nD) → (b : Ref sig .tc) → Buf (Elt F) ((c : Thread nD τ).loc b) := fun c b => W9 m c b
def W10 (c : Dev nD) : Valuation τ sig (Elt F) :=
  Pipeline.withArrays spec3 c (W9 m c) fun w => (dat3 (E9 m) c).arrAt w cfg3.N
theorem W10_arr (c : Dev nD) (w : Fin cfg3.W) :
    W10 m c (Proc.devRef .tc (Pipeline.arrRef spec3 w)) = (dat3 (E9 m) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb
abbrev W11 : Dev nD → Valuation τ sig (Elt F) := fun c => StableHlo.after hostOps4 (W10 m c)
abbrev E11 : (c : Dev nD) → (b : Ref sig .tc) → Buf (Elt F) ((c : Thread nD τ).loc b) := fun c b => W11 m c b
def W12 (c : Dev nD) : Valuation τ sig (Elt F) :=
  Pipeline.withArrays spec4 c (W11 m c) fun w => (dat4 (E11 m) c).arrAt w cfg4.N
theorem W12_arr (c : Dev nD) (w : Fin cfg4.W) :
    W12 m c (Proc.devRef .tc (Pipeline.arrRef spec4 w)) = (dat4 (E11 m) c).arrAt w cfg4.N :=
  Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) :=
  Pipeline.withArrays_of_ne spec4 c _ _ b hb
abbrev W13 : Dev nD → Valuation τ sig (Elt F) := fun c => StableHlo.after hostOps5 (W12 m c)
abbrev E13 : (c : Dev nD) → (b : Ref sig .tc) → Buf (Elt F) ((c : Thread nD τ).loc b) := fun c b => W13 m c b
def W14 (c : Dev nD) : Valuation τ sig (Elt F) :=
  Pipeline.withArrays spec5 c (W13 m c) fun w => (dat5 (E13 m) c).arrAt w cfg5.N
theorem W14_arr (c : Dev nD) (w : Fin cfg5.W) :
    W14 m c (Proc.devRef .tc (Pipeline.arrRef spec5 w)) = (dat5 (E13 m) c).arrAt w cfg5.N :=
  Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) :=
  Pipeline.withArrays_of_ne spec5 c _ _ b hb
abbrev W15 : Dev nD → Valuation τ sig (Elt F) := fun c => StableHlo.after hostOps6 (W14 m c)
abbrev E15 : (c : Dev nD) → (b : Ref sig .tc) → Buf (Elt F) ((c : Thread nD τ).loc b) := fun c b => W15 m c b
def W16 (c : Dev nD) : Valuation τ sig (Elt F) :=
  Pipeline.withArrays spec6 c (W15 m c) fun w => (dat6 (E15 m) c).arrAt w cfg6.N
theorem W16_arr (c : Dev nD) (w : Fin cfg6.W) :
    W16 m c (Proc.devRef .tc (Pipeline.arrRef spec6 w)) = (dat6 (E15 m) c).arrAt w cfg6.N :=
  Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) :=
  Pipeline.withArrays_of_ne spec6 c _ _ b hb
abbrev W17 : Dev nD → Valuation τ sig (Elt F) := fun c => StableHlo.after hostOps7 (W16 m c)
abbrev E17 : (c : Dev nD) → (b : Ref sig .tc) → Buf (Elt F) ((c : Thread nD τ).loc b) := fun c b => W17 m c b
def W18 (c : Dev nD) : Valuation τ sig (Elt F) :=
  Pipeline.withArrays spec7 c (W17 m c) fun w => (dat7 (E17 m) c).arrAt w cfg7.N
theorem W18_arr (c : Dev nD) (w : Fin cfg7.W) :
    W18 m c (Proc.devRef .tc (Pipeline.arrRef spec7 w)) = (dat7 (E17 m) c).arrAt w cfg7.N :=
  Pipeline.withArrays_arr spec7 launch7.win.arr_inj c _ _ w
theorem W18_of_ne (c : Dev nD) (b : Ref sig .tc) (hb : ∀ w, Pipeline.arrRef spec7 w ≠ b) :
    W18 m c (Proc.devRef .tc b) = W17 m c (Proc.devRef .tc b) :=
  Pipeline.withArrays_of_ne spec7 c _ _ b hb
abbrev W19 : Dev nD → Valuation τ sig (Elt F) := fun c => StableHlo.after hostOps8 (W18 m c)
def pdats : (p : Fin 8) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
  | ⟨3, _⟩ => fun c => dat3 (E9 m) c
  | ⟨4, _⟩ => fun c => dat4 (E11 m) c
  | ⟨5, _⟩ => fun c => dat5 (E13 m) c
  | ⟨6, _⟩ => fun c => dat6 (E15 m) c
  | ⟨7, _⟩ => fun c => dat7 (E17 m) c
abbrev 𝒱₀ : Variants := Variants.none
abbrev L : GSem nD τ sig → Finset Unit := fun _ => ∅
abbrev lv : GSem nD τ sig → Unit → ℕ := fun _ _ => 0
-- What every item of the program leaves as it found it.
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m c) ∗ ∃ r, prngReg c r)

-- The eight regions are one construction: they differ in the region number, in the contents before and after, and in the two ends of the invariant.
def regOf (p : Fin 8) (kit : Pipeline.LaunchFacts (nD := nD) (τ := τ) cfgs p) (V V' : Dev nD → Valuation τ sig (Elt F))
    (hbody : ∀ c, BodyObligation (pdats m p c) defs₀ Variants.none () Set.univ)
    (hV' : ∀ c, V' c = Pipeline.withArrays (cfgs p).spec c (V c) fun w => (pdats m p c).arrAt w (cfgs p).N := by exact fun _ => rfl)
    (hA : ∀ c w, (pdats m p c).A w = V c (Proc.devRef .tc (Pipeline.arrRef (cfgs p).spec w)) := by exact fun _ _ => rfl)
    (hq : ∀ c w, (pdats m p c).q w = fullShare := by exact fun _ _ => rfl)
    (howed : ∀ c t, (pdats m p c).owed t = 0 := by exact fun _ _ => rfl)
    (hrec : ∀ c x, x ∈ (pdats m p c).recorded 0 := by exact fun _ _ => trivial)
    (hΦ₀ : ∀ c, (Pipeline.ΦA (cfgs p).spec c : sProp 𝕄) ⊢ (pdats m p c).Φ 0 := by exact fun _ => .rfl)
    (hΦₙ : ∀ c, (pdats m p c).Φ (Fin.last _) ⊢ (Pipeline.ΦA (cfgs p).spec c : sProp 𝕄) := by exact fun _ => .rfl) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) kit.win kit.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine .trans ?_ (hΦ₀ c); unfold Pipeline.ΦA
    iintro ⟨Hp, -, Hr⟩
    isplitl [Hr]; · iexact Hr
    iexact Hp
  hout c := by
    rw [Pipeline.ownSems0_none]; refine (hΦₙ c).trans ?_; unfold Pipeline.ΦA
    iintro ⟨Hr, Hp⟩
    isplitl [Hp]; · iexact Hp
    isplitr; · iempintro
    iexact Hr
  hexit c := by
    have hF : ∀ w, (pdats m p c).arrAt w (cfgs p).N = V' c (Proc.devRef .tc (Pipeline.arrRef (cfgs p).spec w)) := fun w => by
      rw [hV' c, Pipeline.withArrays_arr _ kit.win.arr_inj]
    have hrest : ∀ b, b ∉ Finset.univ.image (Pipeline.arrRef (cfgs p).spec) → V' c (Proc.devRef .tc b) = V c (Proc.devRef .tc b) :=
      fun b hb => by
        rw [hV' c]; exact Pipeline.withArrays_of_ne _ c _ _ b fun w e => hb (Finset.mem_image.mpr ⟨w, Finset.mem_univ _, e⟩)
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (fun b => V c b) (fun b => V' c b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱₀ L lv 0 :=
  regOf m 0 launch0 (W3 m) (W4 m) (body_obligation0 (E3 m))
def reg1 : Pipeline.RegionSeg (pcfgs (F := F)) adm (pdats m) () defs₀ 𝒱₀ L lv 1 :=
  regOf m 1 launch1 (W5 m) (W6 m) (body_obligation1 (E5 m))
def reg2 : Pipeline.RegionSeg (pcfgs (F := F)) adm (pdats m) () defs₀ 𝒱₀ L lv 2 :=
  regOf m 2 launch2 (W7 m) (W8 m) (body_obligation2 (E7 m))
def reg3 : Pipeline.RegionSeg (pcfgs (F := F)) adm (pdats m) () defs₀ 𝒱₀ L lv 3 :=
  regOf m 3 launch3 (W9 m) (W10 m) (body_obligation3 (E9 m))
def reg4 : Pipeline.RegionSeg (pcfgs (F := F)) adm (pdats m) () defs₀ 𝒱₀ L lv 4 :=
  regOf m 4 launch4 (W11 m) (W12 m) (body_obligation4 (E11 m))
def reg5 : Pipeline.RegionSeg (pcfgs (F := F)) adm (pdats m) () defs₀ 𝒱₀ L lv 5 :=
  regOf m 5 launch5 (W13 m) (W14 m) (body_obligation5 (E13 m))
def reg6 : Pipeline.RegionSeg (pcfgs (F := F)) adm (pdats m) () defs₀ 𝒱₀ L lv 6 :=
  regOf m 6 launch6 (W15 m) (W16 m) (body_obligation6 (E15 m))
def reg7 : Pipeline.RegionSeg (pcfgs (F := F)) adm (pdats m) () defs₀ 𝒱₀ L lv 7 :=
  regOf m 7 launch7 (W17 m) (W18 m) (body_obligation7 (E17 m)) (hΦ₀ := Φ7_first (E17 m)) (hΦₙ := Φ7_last (E17 m))

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)),
    .region (reg7 m),
    .host (hseg hostOps8 hostOps8_sub hostOps8_fresh (W18 m)) ]

theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun _ h => h)

-- One chain of equalities serves all eight arguments; region 0's step is left to the caller, argument 0 being one of its inputs.
theorem W19_keep (c : Dev nD) (b : Ref sig .tc)
    (h : b ∉ hostOps8_W ∧ (∀ w, Pipeline.arrRef spec7 w ≠ b) ∧ b ∉ hostOps7_W ∧ (∀ w, Pipeline.arrRef spec6 w ≠ b)
      ∧ b ∉ hostOps6_W ∧ (∀ w, Pipeline.arrRef spec5 w ≠ b) ∧ b ∉ hostOps5_W ∧ (∀ w, Pipeline.arrRef spec4 w ≠ b)
      ∧ b ∉ hostOps4_W ∧ (∀ w, Pipeline.arrRef spec3 w ≠ b) ∧ b ∉ hostOps3_W ∧ (∀ w, Pipeline.arrRef spec2 w ≠ b)
      ∧ b ∉ hostOps2_W ∧ (∀ w, Pipeline.arrRef spec1 w ≠ b) ∧ b ∉ hostOps1_W ∧ b ∉ hostOps0_2_W ∧ b ∉ hostOps0_1_W ∧ b ∉ hostOps0_W)
    (h0 : W4 m c (Proc.devRef .tc b) = W3 m c (Proc.devRef .tc b)) :
    W19 m c (Proc.devRef .tc b) = m ((c : Thread nD τ).loc b) := by
  obtain ⟨a8, r7, a7, r6, a6, r5, a5, r4, a4, r3, a3, r2, a2, r1, a1, a02, a01, a00⟩ := h
  calc W19 m c (Proc.devRef .tc b)
    _ = W18 m c (Proc.devRef .tc b) := StableHlo.after_of_writes_sub hostOps8 _ hostOps8_writes a8
    _ = W17 m c (Proc.devRef .tc b) := W18_of_ne m c b r7
    _ = W16 m c (Proc.devRef .tc b) := StableHlo.after_of_writes_sub hostOps7 _ hostOps7_writes a7
    _ = W15 m c (Proc.devRef .tc b) := W16_of_ne m c b r6
    _ = W14 m c (Proc.devRef .tc b) := StableHlo.after_of_writes_sub hostOps6 _ hostOps6_writes a6
    _ = W13 m c (Proc.devRef .tc b) := W14_of_ne m c b r5
    _ = W12 m c (Proc.devRef .tc b) := StableHlo.after_of_writes_sub hostOps5 _ hostOps5_writes a5
    _ = W11 m c (Proc.devRef .tc b) := W12_of_ne m c b r4
    _ = W10 m c (Proc.devRef .tc b) := StableHlo.after_of_writes_sub hostOps4 _ hostOps4_writes a4
    _ = W9 m c (Proc.devRef .tc b) := W10_of_ne m c b r3
    _ = W8 m c (Proc.devRef .tc b) := StableHlo.after_of_writes_sub hostOps3 _ hostOps3_writes a3
    _ = W7 m c (Proc.devRef .tc b) := W8_of_ne m c b r2
    _ = W6 m c (Proc.devRef .tc b) := StableHlo.after_of_writes_sub hostOps2 _ hostOps2_writes a2
    _ = W5 m c (Proc.devRef .tc b) := W6_of_ne m c b r1
    _ = W4 m c (Proc.devRef .tc b) := StableHlo.after_of_writes_sub hostOps1 _ hostOps1_writes a1
    _ = W3 m c (Proc.devRef .tc b) := h0
    _ = W2 m c (Proc.devRef .tc b) := StableHlo.after_of_writes_sub hostOps0_2 _ hostOps0_2_writes a02
    _ = W1 m c (Proc.devRef .tc b) := StableHlo.after_of_writes_sub hostOps0_1 _ hostOps0_1_writes a01
    _ = W0 m c (Proc.devRef .tc b) := StableHlo.after_of_writes_sub hostOps0 _ hostOps0_writes a00
    _ = m ((c : Thread nD τ).loc b) := rfl
theorem W19_main_arg0 (c : Dev nD) : W19 m c (Proc.devRef .tc main_arg0) = m ((c : Thread nD τ).loc main_arg0) :=
  W19_keep m c _ (by decide) ((W4_arr m c 1).trans (((dat0 (E3 m) c).arrAt_in 1 rfl _).trans (A_eq0 (E3 m) c 1)))
theorem W19_main_arg1 (c : Dev nD) : W19 m c (Proc.devRef .tc main_arg1) = m ((c : Thread nD τ).loc main_arg1) :=
  W19_keep m c _ (by decide) (W4_of_ne m c _ (by decide))
theorem W19_main_arg2 (c : Dev nD) : W19 m c (Proc.devRef .tc main_arg2) = m ((c : Thread nD τ).loc main_arg2) :=
  W19_keep m c _ (by decide) (W4_of_ne m c _ (by decide))
theorem W19_main_arg3 (c : Dev nD) : W19 m c (Proc.devRef .tc main_arg3) = m ((c : Thread nD τ).loc main_arg3) :=
  W19_keep m c _ (by decide) (W4_of_ne m c _ (by decide))
theorem W19_main_arg4 (c : Dev nD) : W19 m c (Proc.devRef .tc main_arg4) = m ((c : Thread nD τ).loc main_arg4) :=
  W19_keep m c _ (by decide) (W4_of_ne m c _ (by decide))
theorem W19_main_arg5 (c : Dev nD) : W19 m c (Proc.devRef .tc main_arg5) = m ((c : Thread nD τ).loc main_arg5) :=
  W19_keep m c _ (by decide) (W4_of_ne m c _ (by decide))
theorem W19_main_arg6 (c : Dev nD) : W19 m c (Proc.devRef .tc main_arg6) = m ((c : Thread nD τ).loc main_arg6) :=
  W19_keep m c _ (by decide) (W4_of_ne m c _ (by decide))
theorem W19_main_arg7 (c : Dev nD) : W19 m c (Proc.devRef .tc main_arg7) = m ((c : Thread nD τ).loc main_arg7) :=
  W19_keep m c _ (by decide) (W4_of_ne m c _ (by decide))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W19_main_arg0 m c),
      (h c _ (mem_uc main_arg1 (by decide))).trans (W19_main_arg1 m c),
      (h c _ (mem_uc main_arg2 (by decide))).trans (W19_main_arg2 m c),
      (h c _ (mem_uc main_arg3 (by decide))).trans (W19_main_arg3 m c),
      (h c _ (mem_uc main_arg4 (by decide))).trans (W19_main_arg4 m c),
      (h c _ (mem_uc main_arg5 (by decide))).trans (W19_main_arg5 m c),
      (h c _ (mem_uc main_arg6 (by decide))).trans (W19_main_arg6 m c),
      (h c _ (mem_uc main_arg7 (by decide))).trans (W19_main_arg7 m c)⟩) (run_all m ρ)

end Cert.KernelIdeal.Hand

end
-- ==== Proof.KI.Keep.lean ====
import proofs.«422910_j59356448031328_1_alg».proof.Proof.KI.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

-- The reference r reads t at the exit of every region.
structure Stays (c : Dev nD) (r : Ref sig .tc) (t : Buf (Elt F) ((c : Thread nD τ).loc r)) : Prop where
  r0 : W4 m c (Proc.devRef .tc r) = t
  r1 : W6 m c (Proc.devRef .tc r) = t
  r2 : W8 m c (Proc.devRef .tc r) = t
  r3 : W10 m c (Proc.devRef .tc r) = t
  r4 : W12 m c (Proc.devRef .tc r) = t
  r5 : W14 m c (Proc.devRef .tc r) = t
  r6 : W16 m c (Proc.devRef .tc r) = t
  r7 : W18 m c (Proc.devRef .tc r) = t

-- A region changes only its arrays and a stretch only what its operations write, so a reference that is none of these reads at every exit what it read at region 0's entry.
theorem quiet (c : Dev nD) (r : Ref sig .tc) {t : Buf (Elt F) ((c : Thread nD τ).loc r)} (h3 : W3 m c (Proc.devRef .tc r) = t)
    (h : (∀ w, Pipeline.arrRef spec0 w ≠ r) ∧ r ∉ hostOps1_W ∧ (∀ w, Pipeline.arrRef spec1 w ≠ r) ∧ r ∉ hostOps2_W ∧ (∀ w, Pipeline.arrRef spec2 w ≠ r) ∧ r ∉ hostOps3_W ∧ (∀ w, Pipeline.arrRef spec3 w ≠ r) ∧ r ∉ hostOps4_W ∧ (∀ w, Pipeline.arrRef spec4 w ≠ r) ∧ r ∉ hostOps5_W ∧ (∀ w, Pipeline.arrRef spec5 w ≠ r) ∧ r ∉ hostOps6_W ∧ (∀ w, Pipeline.arrRef spec6 w ≠ r) ∧ r ∉ hostOps7_W ∧ (∀ w, Pipeline.arrRef spec7 w ≠ r)) :
    Stays m c r t := by
  obtain ⟨a0, b1, a1, b2, a2, b3, a3, b4, a4, b5, a5, b6, a6, b7, a7⟩ := h
  have e4 := (W4_of_ne m c r a0).trans h3
  have e6 := (W6_of_ne m c r a1).trans ((StableHlo.after_of_writes_sub hostOps1 (W4 m c) hostOps1_writes b1).trans e4)
  have e8 := (W8_of_ne m c r a2).trans ((StableHlo.after_of_writes_sub hostOps2 (W6 m c) hostOps2_writes b2).trans e6)
  have e10 := (W10_of_ne m c r a3).trans ((StableHlo.after_of_writes_sub hostOps3 (W8 m c) hostOps3_writes b3).trans e8)
  have e12 := (W12_of_ne m c r a4).trans ((StableHlo.after_of_writes_sub hostOps4 (W10 m c) hostOps4_writes b4).trans e10)
  have e14 := (W14_of_ne m c r a5).trans ((StableHlo.after_of_writes_sub hostOps5 (W12 m c) hostOps5_writes b5).trans e12)
  have e16 := (W16_of_ne m c r a6).trans ((StableHlo.after_of_writes_sub hostOps6 (W14 m c) hostOps6_writes b6).trans e14)
  have e18 := (W18_of_ne m c r a7).trans ((StableHlo.after_of_writes_sub hostOps7 (W16 m c) hostOps7_writes b7).trans e16)
  exact ⟨e4, e6, e8, e10, e12, e14, e16, e18⟩

-- A reference that no opening stretch writes still reads its launch contents at region 0's entry.
theorem launch3 (c : Dev nD) (r : Ref sig .tc) (h : r ∉ hostOps0_W ∧ r ∉ hostOps0_1_W ∧ r ∉ hostOps0_2_W) :
    W2 m c (Proc.devRef .tc r) = m ((c : Thread nD τ).loc r) ∧ W3 m c (Proc.devRef .tc r) = m ((c : Thread nD τ).loc r) :=
  have e2 : W2 m c (Proc.devRef .tc r) = m ((c : Thread nD τ).loc r) :=
    (StableHlo.after_of_writes_sub hostOps0_1 (W1 m c) hostOps0_1_writes h.2.1).trans
      (StableHlo.after_of_writes_sub hostOps0 (W0 m c) hostOps0_writes h.1)
  ⟨e2, (StableHlo.after_of_writes_sub hostOps0_2 (W2 m c) hostOps0_2_writes h.2.2).trans e2⟩

-- The stretch after a layer reads the layer's output and does not write it.
theorem keepH1 (c : Dev nD) : W5 m c (Proc.devRef .tc main_v31) = W4 m c (Proc.devRef .tc main_v31) :=
  StableHlo.after_of_writes_sub hostOps1 _ hostOps1_writes (by decide)
theorem keepH2 (c : Dev nD) : W7 m c (Proc.devRef .tc main_v51) = W6 m c (Proc.devRef .tc main_v51) :=
  StableHlo.after_of_writes_sub hostOps2 _ hostOps2_writes (by decide)
theorem keepH3 (c : Dev nD) : W9 m c (Proc.devRef .tc main_v71) = W8 m c (Proc.devRef .tc main_v71) :=
  StableHlo.after_of_writes_sub hostOps3 _ hostOps3_writes (by decide)
theorem keepH4 (c : Dev nD) : W11 m c (Proc.devRef .tc main_v91) = W10 m c (Proc.devRef .tc main_v91) :=
  StableHlo.after_of_writes_sub hostOps4 _ hostOps4_writes (by decide)
theorem keepH5 (c : Dev nD) : W13 m c (Proc.devRef .tc main_v111) = W12 m c (Proc.devRef .tc main_v111) :=
  StableHlo.after_of_writes_sub hostOps5 _ hostOps5_writes (by decide)
theorem keepH6 (c : Dev nD) : W15 m c (Proc.devRef .tc main_v131) = W14 m c (Proc.devRef .tc main_v131) :=
  StableHlo.after_of_writes_sub hostOps6 _ hostOps6_writes (by decide)
theorem keepH7 (c : Dev nD) : W17 m c (Proc.devRef .tc main_v151) = W16 m c (Proc.devRef .tc main_v151) :=
  StableHlo.after_of_writes_sub hostOps7 _ hostOps7_writes (by decide)

end Cert.KernelIdeal.Hand

end
-- ==== Proof.KI.HostRead.lean ====
import proofs.«422910_j59356448031328_1_alg».proof.Proof.KI.Run
import proofs.«422910_j59356448031328_1_alg».proof.Proof.KI.Keep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo

variable {F : FTy → Type} [FloatOps F]

variable (m : (ℓ : Loc nD τ sig) → Buf (Elt F) ℓ)

def v1T (e : IVec S2x800000 32) : IVec S800000 32 :=
  shapeCast S800000 (extractStridedSlice S1x800000 ![0, 0] e slices_S2x800000_S1x800000_0_0) shapeCasts_S1x800000_S800000
def v3T (e : IVec S2x800000 32) : IVec S800000 32 :=
  shapeCast S800000 (extractStridedSlice S1x800000 ![1, 0] e slices_S2x800000_S1x800000_1_0) shapeCasts_S1x800000_S800000
def degT (v3 : IVec S800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 v3)
    (broadcastInDim S800000 ![] bcast_S_S800000 (constant (F := F) S_ .f32 0x3F800000#32))
def clipT (d : FVec F S50000 .f32) : FVec F S50000 .f32 :=
  maximumf (broadcastInDim S50000 ![] bcast_S_S50000 (constant (F := F) S_ .f32 0x3F800000#32)) d
def v11T (e : IVec S2x800000 32) : FVec F S50000x1 .f32 :=
  broadcastInDim S50000x1 ![0] bcast_S50000_S50000x1_0
    (Host.divf (broadcastInDim S50000 ![] bcast_S_S50000 (constant (F := F) S_ .f32 0x3F800000#32)) (clipT (degT (v3T e))))
def aggT (h : FVec F S50000x128 .f32) (v1 v3 : IVec S800000 32) (v11 : FVec F S50000x1 .f32) : FVec F S50000x128 .f32 :=
  mulf
    (Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 v3)
      (Host.gather gather_S50000x128_S800000x1_S800000x128_1_0_n_n_0_1_1128 h
        (broadcastInDim S800000x1 ![0] bcast_S800000_S800000x1_0
          (select (cmpi .slt v1 (broadcastInDim S800000 ![] bcast_S_S800000 (constantI S_ 32 0#32)))
            (addi v1 (broadcastInDim S800000 ![] bcast_S_S800000 (constantI S_ 32 50000#32))) v1))))
    (broadcastInDim S50000x128 ![0, 1] bcast_S50000x1_S50000x128_0_1 v11)
def wlT0 (w : FVec F S7x128x128 .f32) : FVec F S128x128 .f32 :=
  shapeCast S128x128 (extractStridedSlice S1x128x128 ![0, 0, 0] w slices_S7x128x128_S1x128x128_0_0_0) shapeCasts_S1x128x128_S128x128
def wrT0 (w : FVec F S7x128x128 .f32) : FVec F S128x128 .f32 :=
  shapeCast S128x128 (extractStridedSlice S1x128x128 ![0, 0, 0] w slices_S7x128x128_S1x128x128_0_0_0) shapeCasts_S1x128x128_S128x128
def bT0 (b : FVec F S7x128 .f32) : FVec F S1x128 .f32 :=
  shapeCast S1x128 (shapeCast S128 (extractStridedSlice S1x128 ![0, 0] b slices_S7x128_S1x128_0_0) shapeCasts_S1x128_S128) shapeCasts_S128_S1x128
def wlT1 (w : FVec F S7x128x128 .f32) : FVec F S128x128 .f32 :=
  shapeCast S128x128 (extractStridedSlice S1x128x128 ![1, 0, 0] w slices_S7x128x128_S1x128x128_1_0_0) shapeCasts_S1x128x128_S128x128
def wrT1 (w : FVec F S7x128x128 .f32) : FVec F S128x128 .f32 :=
  shapeCast S128x128 (extractStridedSlice S1x128x128 ![1, 0, 0] w slices_S7x128x128_S1x128x128_1_0_0) shapeCasts_S1x128x128_S128x128
def bT1 (b : FVec F S7x128 .f32) : FVec F S1x128 .f32 :=
  shapeCast S1x128 (shapeCast S128 (extractStridedSlice S1x128 ![1, 0] b slices_S7x128_S1x128_1_0) shapeCasts_S1x128_S128) shapeCasts_S128_S1x128
def wlT2 (w : FVec F S7x128x128 .f32) : FVec F S128x128 .f32 :=
  shapeCast S128x128 (extractStridedSlice S1x128x128 ![2, 0, 0] w slices_S7x128x128_S1x128x128_2_0_0) shapeCasts_S1x128x128_S128x128
def wrT2 (w : FVec F S7x128x128 .f32) : FVec F S128x128 .f32 :=
  shapeCast S128x128 (extractStridedSlice S1x128x128 ![2, 0, 0] w slices_S7x128x128_S1x128x128_2_0_0) shapeCasts_S1x128x128_S128x128
def bT2 (b : FVec F S7x128 .f32) : FVec F S1x128 .f32 :=
  shapeCast S1x128 (shapeCast S128 (extractStridedSlice S1x128 ![2, 0] b slices_S7x128_S1x128_2_0) shapeCasts_S1x128_S128) shapeCasts_S128_S1x128
def wlT3 (w : FVec F S7x128x128 .f32) : FVec F S128x128 .f32 :=
  shapeCast S128x128 (extractStridedSlice S1x128x128 ![3, 0, 0] w slices_S7x128x128_S1x128x128_3_0_0) shapeCasts_S1x128x128_S128x128
def wrT3 (w : FVec F S7x128x128 .f32) : FVec F S128x128 .f32 :=
  shapeCast S128x128 (extractStridedSlice S1x128x128 ![3, 0, 0] w slices_S7x128x128_S1x128x128_3_0_0) shapeCasts_S1x128x128_S128x128
def bT3 (b : FVec F S7x128 .f32) : FVec F S1x128 .f32 :=
  shapeCast S1x128 (shapeCast S128 (extractStridedSlice S1x128 ![3, 0] b slices_S7x128_S1x128_3_0) shapeCasts_S1x128_S128) shapeCasts_S128_S1x128
def wlT4 (w : FVec F S7x128x128 .f32) : FVec F S128x128 .f32 :=
  shapeCast S128x128 (extractStridedSlice S1x128x128 ![4, 0, 0] w slices_S7x128x128_S1x128x128_4_0_0) shapeCasts_S1x128x128_S128x128
def wrT4 (w : FVec F S7x128x128 .f32) : FVec F S128x128 .f32 :=
  shapeCast S128x128 (extractStridedSlice S1x128x128 ![4, 0, 0] w slices_S7x128x128_S1x128x128_4_0_0) shapeCasts_S1x128x128_S128x128
def bT4 (b : FVec F S7x128 .f32) : FVec F S1x128 .f32 :=
  shapeCast S1x128 (shapeCast S128 (extractStridedSlice S1x128 ![4, 0] b slices_S7x128_S1x128_4_0) shapeCasts_S1x128_S128) shapeCasts_S128_S1x128
def wlT5 (w : FVec F S7x128x128 .f32) : FVec F S128x128 .f32 :=
  shapeCast S128x128 (extractStridedSlice S1x128x128 ![5, 0, 0] w slices_S7x128x128_S1x128x128_5_0_0) shapeCasts_S1x128x128_S128x128
def wrT5 (w : FVec F S7x128x128 .f32) : FVec F S128x128 .f32 :=
  shapeCast S128x128 (extractStridedSlice S1x128x128 ![5, 0, 0] w slices_S7x128x128_S1x128x128_5_0_0) shapeCasts_S1x128x128_S128x128
def bT5 (b : FVec F S7x128 .f32) : FVec F S1x128 .f32 :=
  shapeCast S1x128 (shapeCast S128 (extractStridedSlice S1x128 ![5, 0] b slices_S7x128_S1x128_5_0) shapeCasts_S1x128_S128) shapeCasts_S128_S1x128
def wlT6 (w : FVec F S7x128x128 .f32) : FVec F S128x128 .f32 :=
  shapeCast S128x128 (extractStridedSlice S1x128x128 ![6, 0, 0] w slices_S7x128x128_S1x128x128_6_0_0) shapeCasts_S1x128x128_S128x128
def wrT6 (w : FVec F S7x128x128 .f32) : FVec F S128x128 .f32 :=
  shapeCast S128x128 (extractStridedSlice S1x128x128 ![6, 0, 0] w slices_S7x128x128_S1x128x128_6_0_0) shapeCasts_S1x128x128_S128x128
def bT6 (b : FVec F S7x128 .f32) : FVec F S1x128 .f32 :=
  shapeCast S1x128 (shapeCast S128 (extractStridedSlice S1x128 ![6, 0] b slices_S7x128_S1x128_6_0) shapeCasts_S1x128_S128) shapeCasts_S128_S1x128
def batchT (b : IVec S50000 32) : IVec S50000x1 32 := shapeCast S50000x1 b shapeCasts_S50000_S50000x1
def headT (p : FVec F S500x128 .f32) (wo : FVec F S128x2 .f32) (bo : FVec F S2 .f32) : FVec F S500x2 .f32 :=
  addf (Host.dotGeneral dot_S500x128_S128x2_S500x2_1_0_0_1_n_n none p wo)
    (broadcastInDim S500x2 ![0, 1] bcast_S1x2_S500x2_0_1 (broadcastInDim S1x2 ![1] bcast_S2_S1x2_1 bo))

theorem r3_v1 (c : Dev nD) : W3 m c (Proc.devRef .tc main_v1) = v1T (m ((c : Thread nD τ).loc main_arg1)) := by
  show StableHlo.after hostOps0_2 (StableHlo.after hostOps0_1 (StableHlo.after hostOps0 (W0 m c))) (Proc.devRef .tc main_v1) = _
  after_results; rfl
theorem r3_v3 (c : Dev nD) : W3 m c (Proc.devRef .tc main_v3) = v3T (m ((c : Thread nD τ).loc main_arg1)) := by
  show StableHlo.after hostOps0_2 (StableHlo.after hostOps0_1 (StableHlo.after hostOps0 (W0 m c))) (Proc.devRef .tc main_v3) = _
  after_results; rfl
theorem r3_v11 (c : Dev nD) : W3 m c (Proc.devRef .tc main_v11) = v11T (m ((c : Thread nD τ).loc main_arg1)) := by
  show StableHlo.after hostOps0_2 (StableHlo.after hostOps0_1 (StableHlo.after hostOps0 (W0 m c))) (Proc.devRef .tc main_v11) = _
  after_results
  simp only [TRef.ofBuf, TRef.toBuf, cast_eq]
  rfl

-- The edge list's two rows, the reciprocal in-degree and the stacked parameters are written before region 0 or never.
theorem st_v1 (c : Dev nD) : Stays m c main_v1 (v1T (m ((c : Thread nD τ).loc main_arg1))) := quiet m c main_v1 (r3_v1 m c) (by decide)
theorem st_v3 (c : Dev nD) : Stays m c main_v3 (v3T (m ((c : Thread nD τ).loc main_arg1))) := quiet m c main_v3 (r3_v3 m c) (by decide)
theorem st_v11 (c : Dev nD) : Stays m c main_v11 (v11T (m ((c : Thread nD τ).loc main_arg1))) := quiet m c main_v11 (r3_v11 m c) (by decide)
theorem st_arg2 (c : Dev nD) : Stays m c main_arg2 (m ((c : Thread nD τ).loc main_arg2)) := quiet m c main_arg2 (launch3 m c main_arg2 (by decide)).2 (by decide)
theorem st_arg3 (c : Dev nD) : Stays m c main_arg3 (m ((c : Thread nD τ).loc main_arg3)) := quiet m c main_arg3 (launch3 m c main_arg3 (by decide)).2 (by decide)
theorem st_arg4 (c : Dev nD) : Stays m c main_arg4 (m ((c : Thread nD τ).loc main_arg4)) := quiet m c main_arg4 (launch3 m c main_arg4 (by decide)).2 (by decide)
theorem st_arg5 (c : Dev nD) : Stays m c main_arg5 (m ((c : Thread nD τ).loc main_arg5)) := quiet m c main_arg5 (launch3 m c main_arg5 (by decide)).2 (by decide)
theorem st_arg6 (c : Dev nD) : Stays m c main_arg6 (m ((c : Thread nD τ).loc main_arg6)) := quiet m c main_arg6 (launch3 m c main_arg6 (by decide)).2 (by decide)
theorem st_arg7 (c : Dev nD) : Stays m c main_arg7 (m ((c : Thread nD τ).loc main_arg7)) := quiet m c main_arg7 (launch3 m c main_arg7 (by decide)).2 (by decide)

theorem entry0_agg (c : Dev nD) :
    W3 m c (Proc.devRef .tc main_v23) = aggT (m ((c : Thread nD τ).loc main_arg0)) (v1T (m ((c : Thread nD τ).loc main_arg1))) (v3T (m ((c : Thread nD τ).loc main_arg1))) (v11T (m ((c : Thread nD τ).loc main_arg1))) := by
  show StableHlo.after hostOps0_2 (StableHlo.after hostOps0_1 (StableHlo.after hostOps0 (W0 m c))) (Proc.devRef .tc main_v23) = _
  after_results_simp
  simp only [TRef.ofBuf, TRef.toBuf, cast_eq]
  rfl
theorem entry0_h (c : Dev nD) : W3 m c (Proc.devRef .tc main_arg0) = (m ((c : Thread nD τ).loc main_arg0)) := (launch3 m c main_arg0 (by decide)).2
theorem entry0_wl (c : Dev nD) : W3 m c (Proc.devRef .tc main_v25) = wlT0 (m ((c : Thread nD τ).loc main_arg3)) := by
  rw [← (launch3 m c main_arg3 (by decide)).1]; show StableHlo.after hostOps0_2 (W2 m c) (Proc.devRef .tc main_v25) = _; after_results_simp; rfl
theorem entry0_wr (c : Dev nD) : W3 m c (Proc.devRef .tc main_v27) = wrT0 (m ((c : Thread nD τ).loc main_arg4)) := by
  rw [← (launch3 m c main_arg4 (by decide)).1]; show StableHlo.after hostOps0_2 (W2 m c) (Proc.devRef .tc main_v27) = _; after_results; rfl
theorem entry0_b (c : Dev nD) : W3 m c (Proc.devRef .tc main_v30) = bT0 (m ((c : Thread nD τ).loc main_arg5)) := by
  rw [← (launch3 m c main_arg5 (by decide)).1]; show StableHlo.after hostOps0_2 (W2 m c) (Proc.devRef .tc main_v30) = _; after_results; rfl

-- Before layer J: the previous features gathered along the sources, summed at the destinations and scaled by the reciprocal; and slice J of the stacked parameters.
theorem entry1_aggL (c : Dev nD) :
    W5 m c (Proc.devRef .tc main_v43) = aggT (W4 m c (Proc.devRef .tc main_v31)) (v1T (m ((c : Thread nD τ).loc main_arg1))) (v3T (m ((c : Thread nD τ).loc main_arg1))) (v11T (m ((c : Thread nD τ).loc main_arg1))) := by
  rw [← (st_v1 m c).r0, ← (st_v3 m c).r0, ← (st_v11 m c).r0]
  show StableHlo.after hostOps1 (W4 m c) (Proc.devRef .tc main_v43) = _
  after_results_simp
  rfl
theorem entry1_wlL (c : Dev nD) : W5 m c (Proc.devRef .tc main_v45) = wlT1 (m ((c : Thread nD τ).loc main_arg3)) := by
  rw [← (st_arg3 m c).r0]; show StableHlo.after hostOps1 (W4 m c) (Proc.devRef .tc main_v45) = _; after_results; rfl
theorem entry1_wrL (c : Dev nD) : W5 m c (Proc.devRef .tc main_v47) = wrT1 (m ((c : Thread nD τ).loc main_arg4)) := by
  rw [← (st_arg4 m c).r0]; show StableHlo.after hostOps1 (W4 m c) (Proc.devRef .tc main_v47) = _; after_results; rfl
theorem entry1_bL (c : Dev nD) : W5 m c (Proc.devRef .tc main_v50) = bT1 (m ((c : Thread nD τ).loc main_arg5)) := by
  rw [← (st_arg5 m c).r0]; show StableHlo.after hostOps1 (W4 m c) (Proc.devRef .tc main_v50) = _; after_results; rfl
theorem entry2_aggL (c : Dev nD) :
    W7 m c (Proc.devRef .tc main_v63) = aggT (W6 m c (Proc.devRef .tc main_v51)) (v1T (m ((c : Thread nD τ).loc main_arg1))) (v3T (m ((c : Thread nD τ).loc main_arg1))) (v11T (m ((c : Thread nD τ).loc main_arg1))) := by
  rw [← (st_v1 m c).r1, ← (st_v3 m c).r1, ← (st_v11 m c).r1]
  show StableHlo.after hostOps2 (W6 m c) (Proc.devRef .tc main_v63) = _
  after_results_simp
  rfl
theorem entry2_wlL (c : Dev nD) : W7 m c (Proc.devRef .tc main_v65) = wlT2 (m ((c : Thread nD τ).loc main_arg3)) := by
  rw [← (st_arg3 m c).r1]; show StableHlo.after hostOps2 (W6 m c) (Proc.devRef .tc main_v65) = _; after_results; rfl
theorem entry2_wrL (c : Dev nD) : W7 m c (Proc.devRef .tc main_v67) = wrT2 (m ((c : Thread nD τ).loc main_arg4)) := by
  rw [← (st_arg4 m c).r1]; show StableHlo.after hostOps2 (W6 m c) (Proc.devRef .tc main_v67) = _; after_results; rfl
theorem entry2_bL (c : Dev nD) : W7 m c (Proc.devRef .tc main_v70) = bT2 (m ((c : Thread nD τ).loc main_arg5)) := by
  rw [← (st_arg5 m c).r1]; show StableHlo.after hostOps2 (W6 m c) (Proc.devRef .tc main_v70) = _; after_results; rfl
theorem entry3_aggL (c : Dev nD) :
    W9 m c (Proc.devRef .tc main_v83) = aggT (W8 m c (Proc.devRef .tc main_v71)) (v1T (m ((c : Thread nD τ).loc main_arg1))) (v3T (m ((c : Thread nD τ).loc main_arg1))) (v11T (m ((c : Thread nD τ).loc main_arg1))) := by
  rw [← (st_v1 m c).r2, ← (st_v3 m c).r2, ← (st_v11 m c).r2]
  show StableHlo.after hostOps3 (W8 m c) (Proc.devRef .tc main_v83) = _
  after_results_simp
  rfl
theorem entry3_wlL (c : Dev nD) : W9 m c (Proc.devRef .tc main_v85) = wlT3 (m ((c : Thread nD τ).loc main_arg3)) := by
  rw [← (st_arg3 m c).r2]; show StableHlo.after hostOps3 (W8 m c) (Proc.devRef .tc main_v85) = _; after_results; rfl
theorem entry3_wrL (c : Dev nD) : W9 m c (Proc.devRef .tc main_v87) = wrT3 (m ((c : Thread nD τ).loc main_arg4)) := by
  rw [← (st_arg4 m c).r2]; show StableHlo.after hostOps3 (W8 m c) (Proc.devRef .tc main_v87) = _; after_results; rfl
theorem entry3_bL (c : Dev nD) : W9 m c (Proc.devRef .tc main_v90) = bT3 (m ((c : Thread nD τ).loc main_arg5)) := by
  rw [← (st_arg5 m c).r2]; show StableHlo.after hostOps3 (W8 m c) (Proc.devRef .tc main_v90) = _; after_results; rfl
theorem entry4_aggL (c : Dev nD) :
    W11 m c (Proc.devRef .tc main_v103) = aggT (W10 m c (Proc.devRef .tc main_v91)) (v1T (m ((c : Thread nD τ).loc main_arg1))) (v3T (m ((c : Thread nD τ).loc main_arg1))) (v11T (m ((c : Thread nD τ).loc main_arg1))) := by
  rw [← (st_v1 m c).r3, ← (st_v3 m c).r3, ← (st_v11 m c).r3]
  show StableHlo.after hostOps4 (W10 m c) (Proc.devRef .tc main_v103) = _
  after_results_simp
  rfl
theorem entry4_wlL (c : Dev nD) : W11 m c (Proc.devRef .tc main_v105) = wlT4 (m ((c : Thread nD τ).loc main_arg3)) := by
  rw [← (st_arg3 m c).r3]; show StableHlo.after hostOps4 (W10 m c) (Proc.devRef .tc main_v105) = _; after_results; rfl
theorem entry4_wrL (c : Dev nD) : W11 m c (Proc.devRef .tc main_v107) = wrT4 (m ((c : Thread nD τ).loc main_arg4)) := by
  rw [← (st_arg4 m c).r3]; show StableHlo.after hostOps4 (W10 m c) (Proc.devRef .tc main_v107) = _; after_results; rfl
theorem entry4_bL (c : Dev nD) : W11 m c (Proc.devRef .tc main_v110) = bT4 (m ((c : Thread nD τ).loc main_arg5)) := by
  rw [← (st_arg5 m c).r3]; show StableHlo.after hostOps4 (W10 m c) (Proc.devRef .tc main_v110) = _; after_results; rfl
theorem entry5_aggL (c : Dev nD) :
    W13 m c (Proc.devRef .tc main_v123) = aggT (W12 m c (Proc.devRef .tc main_v111)) (v1T (m ((c : Thread nD τ).loc main_arg1))) (v3T (m ((c : Thread nD τ).loc main_arg1))) (v11T (m ((c : Thread nD τ).loc main_arg1))) := by
  rw [← (st_v1 m c).r4, ← (st_v3 m c).r4, ← (st_v11 m c).r4]
  show StableHlo.after hostOps5 (W12 m c) (Proc.devRef .tc main_v123) = _
  after_results_simp
  rfl
theorem entry5_wlL (c : Dev nD) : W13 m c (Proc.devRef .tc main_v125) = wlT5 (m ((c : Thread nD τ).loc main_arg3)) := by
  rw [← (st_arg3 m c).r4]; show StableHlo.after hostOps5 (W12 m c) (Proc.devRef .tc main_v125) = _; after_results; rfl
theorem entry5_wrL (c : Dev nD) : W13 m c (Proc.devRef .tc main_v127) = wrT5 (m ((c : Thread nD τ).loc main_arg4)) := by
  rw [← (st_arg4 m c).r4]; show StableHlo.after hostOps5 (W12 m c) (Proc.devRef .tc main_v127) = _; after_results; rfl
theorem entry5_bL (c : Dev nD) : W13 m c (Proc.devRef .tc main_v130) = bT5 (m ((c : Thread nD τ).loc main_arg5)) := by
  rw [← (st_arg5 m c).r4]; show StableHlo.after hostOps5 (W12 m c) (Proc.devRef .tc main_v130) = _; after_results; rfl
theorem entry6_aggL (c : Dev nD) :
    W15 m c (Proc.devRef .tc main_v143) = aggT (W14 m c (Proc.devRef .tc main_v131)) (v1T (m ((c : Thread nD τ).loc main_arg1))) (v3T (m ((c : Thread nD τ).loc main_arg1))) (v11T (m ((c : Thread nD τ).loc main_arg1))) := by
  rw [← (st_v1 m c).r5, ← (st_v3 m c).r5, ← (st_v11 m c).r5]
  show StableHlo.after hostOps6 (W14 m c) (Proc.devRef .tc main_v143) = _
  after_results_simp
  rfl
theorem entry6_wlL (c : Dev nD) : W15 m c (Proc.devRef .tc main_v145) = wlT6 (m ((c : Thread nD τ).loc main_arg3)) := by
  rw [← (st_arg3 m c).r5]; show StableHlo.after hostOps6 (W14 m c) (Proc.devRef .tc main_v145) = _; after_results; rfl
theorem entry6_wrL (c : Dev nD) : W15 m c (Proc.devRef .tc main_v147) = wrT6 (m ((c : Thread nD τ).loc main_arg4)) := by
  rw [← (st_arg4 m c).r5]; show StableHlo.after hostOps6 (W14 m c) (Proc.devRef .tc main_v147) = _; after_results; rfl
theorem entry6_bL (c : Dev nD) : W15 m c (Proc.devRef .tc main_v150) = bT6 (m ((c : Thread nD τ).loc main_arg5)) := by
  rw [← (st_arg5 m c).r5]; show StableHlo.after hostOps6 (W14 m c) (Proc.devRef .tc main_v150) = _; after_results; rfl

theorem entry7_batchL (c : Dev nD) : W17 m c (Proc.devRef .tc main_v152) = batchT (m ((c : Thread nD τ).loc main_arg2)) := by
  rw [← (st_arg2 m c).r6]; show StableHlo.after hostOps7 (W16 m c) (Proc.devRef .tc main_v152) = _; after_results; rfl
theorem head19L (c : Dev nD) :
    W19 m c (Proc.devRef .tc main_v158) = headT (extractStridedSlice S500x128 ![0, 0] (W18 m c (Proc.devRef .tc main_v153)) slices_S512x128_S500x128_0_0)
      (m ((c : Thread nD τ).loc main_arg6)) (m ((c : Thread nD τ).loc main_arg7)) := by
  rw [← (st_arg6 m c).r7, ← (st_arg7 m c).r7]; show StableHlo.after hostOps8 (W18 m c) (Proc.devRef .tc main_v158) = _; after_results; rfl

end Cert.KernelIdeal.Hand
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨2, ![50000, 128]⟩

abbrev SW : Shape := ⟨2, ![128, 128]⟩

abbrev SG : Shape := ⟨2, ![500, 128]⟩

def denseSum (agg h : SN.Idx → EReal) (wl wr : SW.Idx → EReal) (b : Fin 128 → EReal) (i : SN.Idx) : EReal :=
  ((∑ k : Fin 128, agg (ix2 (n0 := 50000) (n1 := 128) (i 0) k) * wl (ix2 (n0 := 128) (n1 := 128) k (i 1)))
    + (∑ k : Fin 128, h (ix2 (n0 := 50000) (n1 := 128) (i 0) k) * wr (ix2 (n0 := 128) (n1 := 128) k (i 1))))
    + b (i 1)

def dense (relu : Bool) (agg h : SN.Idx → EReal) (wl wr : SW.Idx → EReal) (b : Fin 128 → EReal) : SN.Idx → EReal := fun i =>
  if relu then max (denseSum agg h wl wr b i) 0 else denseSum agg h wl wr b i

def pool (batch : Fin 50000 → BitVec 32) (h : SN.Idx → EReal) : SG.Idx → EReal := fun i =>
  ∑ n ∈ Finset.univ.filter (fun n : Fin 50000 => (batch n).toInt = (((i 0).val : Nat) : Int)),
    h (ix2 (n0 := 50000) (n1 := 128) n (i 1))

end Cert.Spec

end
-- ==== Proof.KI.SageValLib.lean ====
import proofs.«422910_j59356448031328_1_alg».proof.Proof.Gen.KernelIdeal
import proofs.«422910_j59356448031328_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open Idealize.SL.Sem

namespace Dense

theorem hz : (![0, 0] : Fin 2 → Nat) = fun _ => 0 := funext fun a => by fin_cases a <;> rfl

-- A product into a zero accumulator, read at (p, q), is the sum over the one contracted coordinate.
theorem mm_apply {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  show FloatOps.matmul _ none A B _ (ix2 p q) = _
  rw [Ideal.matmul_constant_zero_apply, ← Equiv.sum_comp (contrEquiv1 _ 128 rfl rfl).symm]
  refine Finset.sum_congr rfl fun k _ => ?_
  have hk := contrEquiv1_symm_val dot_S5000x128_S128x128_S5000x128_1_0_0_1_n_n 128 rfl rfl k
  rw [show DotDims.lhsIdx _ (ix2 p q) _ = ix2 p k from Shape.idx_ext₂ rfl ((DotDims.lhsIdx_val_of_single _ rfl _ _).trans hk),
    show DotDims.rhsIdx _ (ix2 p q) _ = ix2 k q from Shape.idx_ext₂ ((DotDims.rhsIdx_val_of_single _ rfl _ _).trans hk) rfl]

-- The two products of the feature blocks with the weights, added, plus the bias row laid along every row.
def lin (x0 x1 : Vec Ideal S5000x128 .f32) (x2 x3 : Vec Ideal S128x128 .f32) (x4 : Vec Ideal S1x128 .f32) : FVec Ideal S5000x128 .f32 :=
  addf (addf (matmul dot_S5000x128_S128x128_S5000x128_1_0_0_1_n_n none (truncf .bf16 x0 bitsLt_bf16_f32) (truncf .bf16 x2 bitsLt_bf16_f32) (constant S5000x128 .f32 0x00000000#32))
      (matmul dot_S5000x128_S128x128_S5000x128_1_0_0_1_n_n none (truncf .bf16 x1 bitsLt_bf16_f32) (truncf .bf16 x3 bitsLt_bf16_f32) (constant S5000x128 .f32 0x00000000#32)))
    (broadcastTo S5000x128 x4 broadcasts_S1x128_S5000x128)

-- One layer's block: lin, clamped below at zero when relu is set.
def layer (relu : Bool) (x0 x1 : Vec Ideal S5000x128 .f32) (x2 x3 : Vec Ideal S128x128 .f32) (x4 : Vec Ideal S1x128 .f32) : FVec Ideal S5000x128 .f32 :=
  if relu then maximumf (lin x0 x1 x2 x3 x4) (broadcast S5000x128 (Scalar.ofBits .f32 0x00000000#32)) else lin x0 x1 x2 x3 x4

-- A block at block index zero on both axes sits in its array at its own coordinates.
theorem emb_whole {n : Fin 2 → ℕ} {e : ((a : Fin 2) → Fin (n a)) → (a : Fin 2) → Fin (n a)}
    (he : ∀ y a, (e y a : Nat) = (![0, 0] : Fin 2 → Nat) a * n a + y a) (y : (a : Fin 2) → Fin (n a)) : e y = y :=
  Shape.idx_ext₂ ((he y 0).trans (by show 0 * n 0 + (y 0).val = (y 0).val; omega)) ((he y 1).trans (by show 0 * n 1 + (y 1).val = (y 1).val; omega))

-- Entry j of the layer of blocks cut at block row t from the features, and whole from the weights and the bias, is the dense layer of the arrays at j's place: the same sums term by term.
theorem layer_point (relu : Bool) (A H : Cert.Spec.SN.Idx → EReal) (Wl Wr : Cert.Spec.SW.Idx → EReal) (B : S1x128.Idx → EReal)
    {e0 e1 e5 : S5000x128.Idx → Cert.Spec.SN.Idx} {e2 e3 : S128x128.Idx → Cert.Spec.SW.Idx} {e4 : S1x128.Idx → S1x128.Idx}
    {i0 i1 i2 i3 i4 i5 : Fin 2 → Nat} {t : Nat}
    (h0 : ∀ y a, (e0 y a : Nat) = i0 a * S5000x128.size a + y a) (h1 : ∀ y a, (e1 y a : Nat) = i1 a * S5000x128.size a + y a)
    (h2 : ∀ y a, (e2 y a : Nat) = i2 a * S128x128.size a + y a) (h3 : ∀ y a, (e3 y a : Nat) = i3 a * S128x128.size a + y a)
    (h4 : ∀ y a, (e4 y a : Nat) = i4 a * S1x128.size a + y a) (h5 : ∀ y a, (e5 y a : Nat) = i5 a * S5000x128.size a + y a)
    (g0 : i0 = ![t, 0]) (g1 : i1 = ![t, 0]) (g2 : i2 = ![0, 0]) (g3 : i3 = ![0, 0]) (g4 : i4 = ![0, 0]) (g5 : i5 = ![t, 0])
    (j : S5000x128.Idx) :
    layer relu (fun y => A (e0 y)) (fun y => H (e1 y)) (fun y => Wl (e2 y)) (fun y => Wr (e3 y)) (fun y => B (e4 y)) j
      = Cert.Spec.dense relu A H Wl Wr (fun f => B (ix2 (0 : Fin 1) f)) (e5 j) := by
  subst g0 g1 g2 g3 g4 g5
  obtain ⟨p, q, rfl⟩ : ∃ (p : Fin 5000) (q : Fin 128), j = ix2 p q := ⟨j 0, j 1, eq_ix2 j⟩
  have row : ∀ {e : S5000x128.Idx → Cert.Spec.SN.Idx}, (∀ y a, (e y a : Nat) = (![t, 0] : Fin 2 → Nat) a * S5000x128.size a + y a) →
      ∀ k : Fin 128, e (ix2 p k) = ix2 (e5 (ix2 p q) 0) k := fun he k =>
    Shape.idx_ext₂ ((he (ix2 p k) 0).trans (h5 (ix2 p q) 0).symm) ((he (ix2 p k) 1).trans (by show 0 * 128 + k.val = k.val; omega))
  have s : lin (fun y => A (e0 y)) (fun y => H (e1 y)) (fun y => Wl (e2 y)) (fun y => Wr (e3 y)) (fun y => B (e4 y)) (ix2 p q)
      = Cert.Spec.denseSum A H Wl Wr (fun f => B (ix2 (0 : Fin 1) f)) (ix2 (e5 (ix2 p q) 0) q) := by
    unfold lin
    rw [addf_apply, addf_apply, mm_apply, mm_apply, broadcastTo_1b_ab_apply]
    simp only [truncf_apply, row h0, row h1, emb_whole h2, emb_whole h3, emb_whole h4]
    rfl
  rw [show e5 (ix2 p q) = ix2 (e5 (ix2 p q) 0) q from row h5 q]
  cases relu
  · exact s
  · exact congrArg₂ max s Ideal.ofBits_zero_f32

-- A payload of blocks, each read through its whole rectangle and laid over the whole rectangle, is the payload of the blocks.
theorem canon_ld {F : FTy → Type} [FloatOps F]
    (pay : Vec F S5000x128 .f32 → Vec F S5000x128 .f32 → Vec F S128x128 .f32 → Vec F S128x128 .f32 → Vec F S1x128 .f32 → FVec F S5000x128 .f32)
    (x0 x1 : Vec F S5000x128 .f32) (x2 x3 : Vec F S128x128 .f32) (x4 : Vec F S1x128 .f32)
    (ia : ∀ a, (![0, 0] : Fin 2 → Nat) a + S5000x128.size a ≤ S5000x128.size a) (ib : ∀ a, (![0, 0] : Fin 2 → Nat) a + S128x128.size a ≤ S128x128.size a)
    (ic : ∀ a, (![0, 0] : Fin 2 → Nat) a + S1x128.size a ≤ S1x128.size a) :
    View.canon [(⟨Rect.unit ![0, 0] S5000x128.size ia, pay (View.ld x0 (Rect.unit ![0, 0] S5000x128.size ia)) (View.ld x1 (Rect.unit ![0, 0] S5000x128.size ia))
      (View.ld x2 (Rect.unit ![0, 0] S128x128.size ib)) (View.ld x3 (Rect.unit ![0, 0] S128x128.size ib)) (View.ld x4 (Rect.unit ![0, 0] S1x128.size ic))⟩ : View.Piece (Elt F) S5000x128 .f32)]
      = pay x0 x1 x2 x3 x4 := by
  rw [View.canon_unit_zero hz]
  simp only [View.ld_unit_zero (S := S5000x128) hz, View.ld_unit_zero (S := S128x128) hz, View.ld_unit_zero (S := S1x128) hz]

-- Row n lies in block n / 5000, one of ten.
theorem row_lt (i : Cert.Spec.SN.Idx) : (i 0).val / 5000 < 10 := by
  have : (i 0).val < 50000 := (i 0).isLt
  omega

-- Index i is inside the block at block index (i 0 / 5000, 0), axis by axis.
theorem row_cover (i : Cert.Spec.SN.Idx) {idx : Fin 2 → Nat} (h : idx = ![(i 0).val / 5000, 0]) (a : Fin 2) :
    idx a * S5000x128.size a ≤ (i a).val ∧ (i a).val < idx a * S5000x128.size a + S5000x128.size a := by
  subst h
  have h0 : (i 0).val < 50000 := (i 0).isLt
  have h1 : (i 1).val < 128 := (i 1).isLt
  match a with
  | ⟨0, _⟩ => show (i 0).val / 5000 * 5000 ≤ (i 0).val ∧ (i 0).val < (i 0).val / 5000 * 5000 + 5000; omega
  | ⟨1, _⟩ => show 0 * 128 ≤ (i 1).val ∧ (i 1).val < 0 * 128 + 128; omega

end Dense

end Cert.KernelIdeal.Hand

end
-- ==== Proof.KI.SageVal0.lean ====
import proofs.«422910_j59356448031328_1_alg».proof.Proof.KI.Sage0
import proofs.«422910_j59356448031328_1_alg».proof.Proof.KI.SageValLib

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- At grid point t the two feature windows and the output take block (t, 0); the weights and the bias take block (0, 0).
theorem idx_facts0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

-- The ten blocks tile the 50000 rows: row n lies in the block of point n / 5000.
theorem cover0 (i : S50000x128.Idx) : ∃ t : Fin cfg0.N, (cfg0.win 5).flush t = true ∧ i ∈ ((cfg0.win 5).blk t).view.set := by
  have hlt : (i 0).val / 5000 < cfg0.N := (Dense.row_lt i).trans_eq N_0.symm
  refine ⟨⟨_, hlt⟩, flush0_5 _, ?_⟩
  show i ∈ ((View.whole (Pipeline.arrRef spec0 5)).slice (win0_5.rect ⟨_, hlt⟩)).set
  rw [View.set_slice_whole, Rect.mem_set_unit]
  exact Dense.row_cover i (idx_facts0 _).2.2.2.2.2

variable (V : (c : Dev nD) → (b : Ref sig .tc) → Buf (Elt Ideal) ((c : Thread nD τ).loc b))

-- The dense layer of the five arrays the region finds.
abbrev den0 (c : Dev nD) : Cert.Spec.SN.Idx → EReal :=
  Cert.Spec.dense true (V c (Pipeline.arrRef spec0 0)) (V c (Pipeline.arrRef spec0 1)) (V c (Pipeline.arrRef spec0 2)) (V c (Pipeline.arrRef spec0 3))
    (fun f => V c (Pipeline.arrRef spec0 4) (ix2 (0 : Fin 1) f))

-- Entry j of the output's block at point t is the dense layer at j's place in the array.
theorem point0 (c : Dev nD) (t : Fin cfg0.N) (j : S5000x128.Idx) :
    out0_5 (iblk0 V c 0 t) (iblk0 V c 1 t) (iblk0 V c 2 t) (iblk0 V c 3 t) (iblk0 V c 4 t) j = den0 V c ((win0_5.rect t).emb j) := by
  have g := idx_facts0 t
  refine (congrFun (Dense.canon_ld k0_pay1 _ _ _ _ _ _ _ _) j).trans ?_
  unfold k0_pay1
  simp only [shapeCast_self]
  apply Dense.layer_point true (V c (Pipeline.arrRef spec0 0)) (V c (Pipeline.arrRef spec0 1)) (V c (Pipeline.arrRef spec0 2)) (V c (Pipeline.arrRef spec0 3))
    (V c (Pipeline.arrRef spec0 4)) (win0_0.rect_emb_val t) (win0_1.rect_emb_val t) (win0_2.rect_emb_val t) (win0_3.rect_emb_val t)
    (win0_4.rect_emb_val t) (win0_5.rect_emb_val t) g.1 g.2.1 g.2.2.1 g.2.2.2.1 g.2.2.2.2.1 g.2.2.2.2.2 j

-- Every point's block of the output is that block of the dense layer, and the blocks cover the output.
theorem final0 (V : (c : Dev nD) → (b : Ref sig .tc) → Buf (Elt Ideal) ((c : Thread nD τ).loc b)) (c : Dev nD) :
    (dat0 (F := Ideal) V c).arrAt 5 cfg0.N = Cert.Spec.dense true (V c (Pipeline.arrRef spec0 0)) (V c (Pipeline.arrRef spec0 1)) (V c (Pipeline.arrRef spec0 2)) (V c (Pipeline.arrRef spec0 3)) (fun f => V c (Pipeline.arrRef spec0 4) (ValueIdx.ix2 (0 : Fin 1) f)) :=
  (dat0 (F := Ideal) V c).arrAt_eq_of_cover 5 (den0 V c) (fun t _ => by
    refine (congrArg ((cfg0.win 5).cut (grid0.coords t)) (after0_5 V c t)).trans (funext fun j => ?_)
    apply point0) cover0

end Cert.KernelIdeal.Hand

end
-- ==== Proof.KI.SageVal1.lean ====
import proofs.«422910_j59356448031328_1_alg».proof.Proof.KI.Sage1
import proofs.«422910_j59356448031328_1_alg».proof.Proof.KI.SageValLib

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- At grid point t the two feature windows and the output take block (t, 0); the weights and the bias take block (0, 0).
theorem idx_facts1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![t.val, 0] :=
  (by decide +kernel : ∀ t : Fin grid1.N, _)

-- The ten blocks tile the 50000 rows: row n lies in the block of point n / 5000.
theorem cover1 (i : S50000x128.Idx) : ∃ t : Fin cfg1.N, (cfg1.win 5).flush t = true ∧ i ∈ ((cfg1.win 5).blk t).view.set := by
  have hlt : (i 0).val / 5000 < cfg1.N := (Dense.row_lt i).trans_eq N_1.symm
  refine ⟨⟨_, hlt⟩, flush1_5 _, ?_⟩
  show i ∈ ((View.whole (Pipeline.arrRef spec1 5)).slice (win1_5.rect ⟨_, hlt⟩)).set
  rw [View.set_slice_whole, Rect.mem_set_unit]
  exact Dense.row_cover i (idx_facts1 _).2.2.2.2.2

variable (V : (c : Dev nD) → (b : Ref sig .tc) → Buf (Elt Ideal) ((c : Thread nD τ).loc b))

-- The dense layer of the five arrays the region finds.
abbrev den1 (c : Dev nD) : Cert.Spec.SN.Idx → EReal :=
  Cert.Spec.dense true (V c (Pipeline.arrRef spec1 0)) (V c (Pipeline.arrRef spec1 1)) (V c (Pipeline.arrRef spec1 2)) (V c (Pipeline.arrRef spec1 3))
    (fun f => V c (Pipeline.arrRef spec1 4) (ix2 (0 : Fin 1) f))

-- Entry j of the output's block at point t is the dense layer at j's place in the array.
theorem point1 (c : Dev nD) (t : Fin cfg1.N) (j : S5000x128.Idx) :
    out1_5 (iblk1 V c 0 t) (iblk1 V c 1 t) (iblk1 V c 2 t) (iblk1 V c 3 t) (iblk1 V c 4 t) j = den1 V c ((win1_5.rect t).emb j) := by
  have g := idx_facts1 t
  refine (congrFun (Dense.canon_ld k1_pay1 _ _ _ _ _ _ _ _) j).trans ?_
  unfold k1_pay1
  simp only [shapeCast_self]
  apply Dense.layer_point true (V c (Pipeline.arrRef spec1 0)) (V c (Pipeline.arrRef spec1 1)) (V c (Pipeline.arrRef spec1 2)) (V c (Pipeline.arrRef spec1 3))
    (V c (Pipeline.arrRef spec1 4)) (win1_0.rect_emb_val t) (win1_1.rect_emb_val t) (win1_2.rect_emb_val t) (win1_3.rect_emb_val t)
    (win1_4.rect_emb_val t) (win1_5.rect_emb_val t) g.1 g.2.1 g.2.2.1 g.2.2.2.1 g.2.2.2.2.1 g.2.2.2.2.2 j

-- Every point's block of the output is that block of the dense layer, and the blocks cover the output.
theorem final1 (V : (c : Dev nD) → (b : Ref sig .tc) → Buf (Elt Ideal) ((c : Thread nD τ).loc b)) (c : Dev nD) :
    (dat1 (F := Ideal) V c).arrAt 5 cfg1.N = Cert.Spec.dense true (V c (Pipeline.arrRef spec1 0)) (V c (Pipeline.arrRef spec1 1)) (V c (Pipeline.arrRef spec1 2)) (V c (Pipeline.arrRef spec1 3)) (fun f => V c (Pipeline.arrRef spec1 4) (ValueIdx.ix2 (0 : Fin 1) f)) :=
  (dat1 (F := Ideal) V c).arrAt_eq_of_cover 5 (den1 V c) (fun t _ => by
    refine (congrArg ((cfg1.win 5).cut (grid1.coords t)) (after1_5 V c t)).trans (funext fun j => ?_)
    apply point1) cover1

end Cert.KernelIdeal.Hand

end
-- ==== Proof.KI.SageVal2.lean ====
import proofs.«422910_j59356448031328_1_alg».proof.Proof.KI.Sage2
import proofs.«422910_j59356448031328_1_alg».proof.Proof.KI.SageValLib

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- At grid point t the two feature windows and the output take block (t, 0); the weights and the bias take block (0, 0).
theorem idx_facts2 : ∀ t : Fin cfg2.N, win2_0.index t = ![t.val, 0] ∧ win2_1.index t = ![t.val, 0] ∧ win2_2.index t = ![0, 0]
    ∧ win2_3.index t = ![0, 0] ∧ win2_4.index t = ![0, 0] ∧ win2_5.index t = ![t.val, 0] :=
  (by decide +kernel : ∀ t : Fin grid2.N, _)

-- The ten blocks tile the 50000 rows: row n lies in the block of point n / 5000.
theorem cover2 (i : S50000x128.Idx) : ∃ t : Fin cfg2.N, (cfg2.win 5).flush t = true ∧ i ∈ ((cfg2.win 5).blk t).view.set := by
  have hlt : (i 0).val / 5000 < cfg2.N := (Dense.row_lt i).trans_eq N_2.symm
  refine ⟨⟨_, hlt⟩, flush2_5 _, ?_⟩
  show i ∈ ((View.whole (Pipeline.arrRef spec2 5)).slice (win2_5.rect ⟨_, hlt⟩)).set
  rw [View.set_slice_whole, Rect.mem_set_unit]
  exact Dense.row_cover i (idx_facts2 _).2.2.2.2.2

variable (V : (c : Dev nD) → (b : Ref sig .tc) → Buf (Elt Ideal) ((c : Thread nD τ).loc b))

-- The dense layer of the five arrays the region finds.
abbrev den2 (c : Dev nD) : Cert.Spec.SN.Idx → EReal :=
  Cert.Spec.dense true (V c (Pipeline.arrRef spec2 0)) (V c (Pipeline.arrRef spec2 1)) (V c (Pipeline.arrRef spec2 2)) (V c (Pipeline.arrRef spec2 3))
    (fun f => V c (Pipeline.arrRef spec2 4) (ix2 (0 : Fin 1) f))

-- Entry j of the output's block at point t is the dense layer at j's place in the array.
theorem point2 (c : Dev nD) (t : Fin cfg2.N) (j : S5000x128.Idx) :
    out2_5 (iblk2 V c 0 t) (iblk2 V c 1 t) (iblk2 V c 2 t) (iblk2 V c 3 t) (iblk2 V c 4 t) j = den2 V c ((win2_5.rect t).emb j) := by
  have g := idx_facts2 t
  refine (congrFun (Dense.canon_ld k2_pay1 _ _ _ _ _ _ _ _) j).trans ?_
  unfold k2_pay1
  simp only [shapeCast_self]
  apply Dense.layer_point true (V c (Pipeline.arrRef spec2 0)) (V c (Pipeline.arrRef spec2 1)) (V c (Pipeline.arrRef spec2 2)) (V c (Pipeline.arrRef spec2 3))
    (V c (Pipeline.arrRef spec2 4)) (win2_0.rect_emb_val t) (win2_1.rect_emb_val t) (win2_2.rect_emb_val t) (win2_3.rect_emb_val t)
    (win2_4.rect_emb_val t) (win2_5.rect_emb_val t) g.1 g.2.1 g.2.2.1 g.2.2.2.1 g.2.2.2.2.1 g.2.2.2.2.2 j

-- Every point's block of the output is that block of the dense layer, and the blocks cover the output.
theorem final2 (V : (c : Dev nD) → (b : Ref sig .tc) → Buf (Elt Ideal) ((c : Thread nD τ).loc b)) (c : Dev nD) :
    (dat2 (F := Ideal) V c).arrAt 5 cfg2.N = Cert.Spec.dense true (V c (Pipeline.arrRef spec2 0)) (V c (Pipeline.arrRef spec2 1)) (V c (Pipeline.arrRef spec2 2)) (V c (Pipeline.arrRef spec2 3)) (fun f => V c (Pipeline.arrRef spec2 4) (ValueIdx.ix2 (0 : Fin 1) f)) :=
  (dat2 (F := Ideal) V c).arrAt_eq_of_cover 5 (den2 V c) (fun t _ => by
    refine (congrArg ((cfg2.win 5).cut (grid2.coords t)) (after2_5 V c t)).trans (funext fun j => ?_)
    apply point2) cover2

end Cert.KernelIdeal.Hand

end
-- ==== Proof.KI.SageVal3.lean ====
import proofs.«422910_j59356448031328_1_alg».proof.Proof.KI.Sage3
import proofs.«422910_j59356448031328_1_alg».proof.Proof.KI.SageValLib

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- At grid point t the two feature windows and the output take block (t, 0); the weights and the bias take block (0, 0).
theorem idx_facts3 : ∀ t : Fin cfg3.N, win3_0.index t = ![t.val, 0] ∧ win3_1.index t = ![t.val, 0] ∧ win3_2.index t = ![0, 0]
    ∧ win3_3.index t = ![0, 0] ∧ win3_4.index t = ![0, 0] ∧ win3_5.index t = ![t.val, 0] :=
  (by decide +kernel : ∀ t : Fin grid3.N, _)

-- The ten blocks tile the 50000 rows: row n lies in the block of point n / 5000.
theorem cover3 (i : S50000x128.Idx) : ∃ t : Fin cfg3.N, (cfg3.win 5).flush t = true ∧ i ∈ ((cfg3.win 5).blk t).view.set := by
  have hlt : (i 0).val / 5000 < cfg3.N := (Dense.row_lt i).trans_eq N_3.symm
  refine ⟨⟨_, hlt⟩, flush3_5 _, ?_⟩
  show i ∈ ((View.whole (Pipeline.arrRef spec3 5)).slice (win3_5.rect ⟨_, hlt⟩)).set
  rw [View.set_slice_whole, Rect.mem_set_unit]
  exact Dense.row_cover i (idx_facts3 _).2.2.2.2.2

variable (V : (c : Dev nD) → (b : Ref sig .tc) → Buf (Elt Ideal) ((c : Thread nD τ).loc b))

-- The dense layer of the five arrays the region finds.
abbrev den3 (c : Dev nD) : Cert.Spec.SN.Idx → EReal :=
  Cert.Spec.dense true (V c (Pipeline.arrRef spec3 0)) (V c (Pipeline.arrRef spec3 1)) (V c (Pipeline.arrRef spec3 2)) (V c (Pipeline.arrRef spec3 3))
    (fun f => V c (Pipeline.arrRef spec3 4) (ix2 (0 : Fin 1) f))

-- Entry j of the output's block at point t is the dense layer at j's place in the array.
theorem point3 (c : Dev nD) (t : Fin cfg3.N) (j : S5000x128.Idx) :
    out3_5 (iblk3 V c 0 t) (iblk3 V c 1 t) (iblk3 V c 2 t) (iblk3 V c 3 t) (iblk3 V c 4 t) j = den3 V c ((win3_5.rect t).emb j) := by
  have g := idx_facts3 t
  refine (congrFun (Dense.canon_ld k3_pay1 _ _ _ _ _ _ _ _) j).trans ?_
  unfold k3_pay1
  simp only [shapeCast_self]
  apply Dense.layer_point true (V c (Pipeline.arrRef spec3 0)) (V c (Pipeline.arrRef spec3 1)) (V c (Pipeline.arrRef spec3 2)) (V c (Pipeline.arrRef spec3 3))
    (V c (Pipeline.arrRef spec3 4)) (win3_0.rect_emb_val t) (win3_1.rect_emb_val t) (win3_2.rect_emb_val t) (win3_3.rect_emb_val t)
    (win3_4.rect_emb_val t) (win3_5.rect_emb_val t) g.1 g.2.1 g.2.2.1 g.2.2.2.1 g.2.2.2.2.1 g.2.2.2.2.2 j

-- Every point's block of the output is that block of the dense layer, and the blocks cover the output.
theorem final3 (V : (c : Dev nD) → (b : Ref sig .tc) → Buf (Elt Ideal) ((c : Thread nD τ).loc b)) (c : Dev nD) :
    (dat3 (F := Ideal) V c).arrAt 5 cfg3.N = Cert.Spec.dense true (V c (Pipeline.arrRef spec3 0)) (V c (Pipeline.arrRef spec3 1)) (V c (Pipeline.arrRef spec3 2)) (V c (Pipeline.arrRef spec3 3)) (fun f => V c (Pipeline.arrRef spec3 4) (ValueIdx.ix2 (0 : Fin 1) f)) :=
  (dat3 (F := Ideal) V c).arrAt_eq_of_cover 5 (den3 V c) (fun t _ => by
    refine (congrArg ((cfg3.win 5).cut (grid3.coords t)) (after3_5 V c t)).trans (funext fun j => ?_)
    apply point3) cover3

end Cert.KernelIdeal.Hand

end
-- ==== Proof.KI.SageVal4.lean ====
import proofs.«422910_j59356448031328_1_alg».proof.Proof.KI.Sage4
import proofs.«422910_j59356448031328_1_alg».proof.Proof.KI.SageValLib

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- At grid point t the two feature windows and the output take block (t, 0); the weights and the bias take block (0, 0).
theorem idx_facts4 : ∀ t : Fin cfg4.N, win4_0.index t = ![t.val, 0] ∧ win4_1.index t = ![t.val, 0] ∧ win4_2.index t = ![0, 0]
    ∧ win4_3.index t = ![0, 0] ∧ win4_4.index t = ![0, 0] ∧ win4_5.index t = ![t.val, 0] :=
  (by decide +kernel : ∀ t : Fin grid4.N, _)

-- The ten blocks tile the 50000 rows: row n lies in the block of point n / 5000.
theorem cover4 (i : S50000x128.Idx) : ∃ t : Fin cfg4.N, (cfg4.win 5).flush t = true ∧ i ∈ ((cfg4.win 5).blk t).view.set := by
  have hlt : (i 0).val / 5000 < cfg4.N := (Dense.row_lt i).trans_eq N_4.symm
  refine ⟨⟨_, hlt⟩, flush4_5 _, ?_⟩
  show i ∈ ((View.whole (Pipeline.arrRef spec4 5)).slice (win4_5.rect ⟨_, hlt⟩)).set
  rw [View.set_slice_whole, Rect.mem_set_unit]
  exact Dense.row_cover i (idx_facts4 _).2.2.2.2.2

variable (V : (c : Dev nD) → (b : Ref sig .tc) → Buf (Elt Ideal) ((c : Thread nD τ).loc b))

-- The dense layer of the five arrays the region finds.
abbrev den4 (c : Dev nD) : Cert.Spec.SN.Idx → EReal :=
  Cert.Spec.dense true (V c (Pipeline.arrRef spec4 0)) (V c (Pipeline.arrRef spec4 1)) (V c (Pipeline.arrRef spec4 2)) (V c (Pipeline.arrRef spec4 3))
    (fun f => V c (Pipeline.arrRef spec4 4) (ix2 (0 : Fin 1) f))

-- Entry j of the output's block at point t is the dense layer at j's place in the array.
theorem point4 (c : Dev nD) (t : Fin cfg4.N) (j : S5000x128.Idx) :
    out4_5 (iblk4 V c 0 t) (iblk4 V c 1 t) (iblk4 V c 2 t) (iblk4 V c 3 t) (iblk4 V c 4 t) j = den4 V c ((win4_5.rect t).emb j) := by
  have g := idx_facts4 t
  refine (congrFun (Dense.canon_ld k4_pay1 _ _ _ _ _ _ _ _) j).trans ?_
  unfold k4_pay1
  simp only [shapeCast_self]
  apply Dense.layer_point true (V c (Pipeline.arrRef spec4 0)) (V c (Pipeline.arrRef spec4 1)) (V c (Pipeline.arrRef spec4 2)) (V c (Pipeline.arrRef spec4 3))
    (V c (Pipeline.arrRef spec4 4)) (win4_0.rect_emb_val t) (win4_1.rect_emb_val t) (win4_2.rect_emb_val t) (win4_3.rect_emb_val t)
    (win4_4.rect_emb_val t) (win4_5.rect_emb_val t) g.1 g.2.1 g.2.2.1 g.2.2.2.1 g.2.2.2.2.1 g.2.2.2.2.2 j

-- Every point's block of the output is that block of the dense layer, and the blocks cover the output.
theorem final4 (V : (c : Dev nD) → (b : Ref sig .tc) → Buf (Elt Ideal) ((c : Thread nD τ).loc b)) (c : Dev nD) :
    (dat4 (F := Ideal) V c).arrAt 5 cfg4.N = Cert.Spec.dense true (V c (Pipeline.arrRef spec4 0)) (V c (Pipeline.arrRef spec4 1)) (V c (Pipeline.arrRef spec4 2)) (V c (Pipeline.arrRef spec4 3)) (fun f => V c (Pipeline.arrRef spec4 4) (ValueIdx.ix2 (0 : Fin 1) f)) :=
  (dat4 (F := Ideal) V c).arrAt_eq_of_cover 5 (den4 V c) (fun t _ => by
    refine (congrArg ((cfg4.win 5).cut (grid4.coords t)) (after4_5 V c t)).trans (funext fun j => ?_)
    apply point4) cover4

end Cert.KernelIdeal.Hand

end
-- ==== Proof.KI.SageVal5.lean ====
import proofs.«422910_j59356448031328_1_alg».proof.Proof.KI.Sage5
import proofs.«422910_j59356448031328_1_alg».proof.Proof.KI.SageValLib

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- At grid point t the two feature windows and the output take block (t, 0); the weights and the bias take block (0, 0).
theorem idx_facts5 : ∀ t : Fin cfg5.N, win5_0.index t = ![t.val, 0] ∧ win5_1.index t = ![t.val, 0] ∧ win5_2.index t = ![0, 0]
    ∧ win5_3.index t = ![0, 0] ∧ win5_4.index t = ![0, 0] ∧ win5_5.index t = ![t.val, 0] :=
  (by decide +kernel : ∀ t : Fin grid5.N, _)

-- The ten blocks tile the 50000 rows: row n lies in the block of point n / 5000.
theorem cover5 (i : S50000x128.Idx) : ∃ t : Fin cfg5.N, (cfg5.win 5).flush t = true ∧ i ∈ ((cfg5.win 5).blk t).view.set := by
  have hlt : (i 0).val / 5000 < cfg5.N := (Dense.row_lt i).trans_eq N_5.symm
  refine ⟨⟨_, hlt⟩, flush5_5 _, ?_⟩
  show i ∈ ((View.whole (Pipeline.arrRef spec5 5)).slice (win5_5.rect ⟨_, hlt⟩)).set
  rw [View.set_slice_whole, Rect.mem_set_unit]
  exact Dense.row_cover i (idx_facts5 _).2.2.2.2.2

variable (V : (c : Dev nD) → (b : Ref sig .tc) → Buf (Elt Ideal) ((c : Thread nD τ).loc b))

-- The dense layer of the five arrays the region finds.
abbrev den5 (c : Dev nD) : Cert.Spec.SN.Idx → EReal :=
  Cert.Spec.dense true (V c (Pipeline.arrRef spec5 0)) (V c (Pipeline.arrRef spec5 1)) (V c (Pipeline.arrRef spec5 2)) (V c (Pipeline.arrRef spec5 3))
    (fun f => V c (Pipeline.arrRef spec5 4) (ix2 (0 : Fin 1) f))

-- Entry j of the output's block at point t is the dense layer at j's place in the array.
theorem point5 (c : Dev nD) (t : Fin cfg5.N) (j : S5000x128.Idx) :
    out5_5 (iblk5 V c 0 t) (iblk5 V c 1 t) (iblk5 V c 2 t) (iblk5 V c 3 t) (iblk5 V c 4 t) j = den5 V c ((win5_5.rect t).emb j) := by
  have g := idx_facts5 t
  refine (congrFun (Dense.canon_ld k5_pay1 _ _ _ _ _ _ _ _) j).trans ?_
  unfold k5_pay1
  simp only [shapeCast_self]
  apply Dense.layer_point true (V c (Pipeline.arrRef spec5 0)) (V c (Pipeline.arrRef spec5 1)) (V c (Pipeline.arrRef spec5 2)) (V c (Pipeline.arrRef spec5 3))
    (V c (Pipeline.arrRef spec5 4)) (win5_0.rect_emb_val t) (win5_1.rect_emb_val t) (win5_2.rect_emb_val t) (win5_3.rect_emb_val t)
    (win5_4.rect_emb_val t) (win5_5.rect_emb_val t) g.1 g.2.1 g.2.2.1 g.2.2.2.1 g.2.2.2.2.1 g.2.2.2.2.2 j

-- Every point's block of the output is that block of the dense layer, and the blocks cover the output.
theorem final5 (V : (c : Dev nD) → (b : Ref sig .tc) → Buf (Elt Ideal) ((c : Thread nD τ).loc b)) (c : Dev nD) :
    (dat5 (F := Ideal) V c).arrAt 5 cfg5.N = Cert.Spec.dense true (V c (Pipeline.arrRef spec5 0)) (V c (Pipeline.arrRef spec5 1)) (V c (Pipeline.arrRef spec5 2)) (V c (Pipeline.arrRef spec5 3)) (fun f => V c (Pipeline.arrRef spec5 4) (ValueIdx.ix2 (0 : Fin 1) f)) :=
  (dat5 (F := Ideal) V c).arrAt_eq_of_cover 5 (den5 V c) (fun t _ => by
    refine (congrArg ((cfg5.win 5).cut (grid5.coords t)) (after5_5 V c t)).trans (funext fun j => ?_)
    apply point5) cover5

end Cert.KernelIdeal.Hand

end
-- ==== Proof.KI.SageVal6.lean ====
import proofs.«422910_j59356448031328_1_alg».proof.Proof.KI.Sage6
import proofs.«422910_j59356448031328_1_alg».proof.Proof.KI.SageValLib

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- At grid point t the two feature windows and the output take block (t, 0); the weights and the bias take block (0, 0).
theorem idx_facts6 : ∀ t : Fin cfg6.N, win6_0.index t = ![t.val, 0] ∧ win6_1.index t = ![t.val, 0] ∧ win6_2.index t = ![0, 0]
    ∧ win6_3.index t = ![0, 0] ∧ win6_4.index t = ![0, 0] ∧ win6_5.index t = ![t.val, 0] :=
  (by decide +kernel : ∀ t : Fin grid6.N, _)

-- The ten blocks tile the 50000 rows: row n lies in the block of point n / 5000.
theorem cover6 (i : S50000x128.Idx) : ∃ t : Fin cfg6.N, (cfg6.win 5).flush t = true ∧ i ∈ ((cfg6.win 5).blk t).view.set := by
  have hlt : (i 0).val / 5000 < cfg6.N := (Dense.row_lt i).trans_eq N_6.symm
  refine ⟨⟨_, hlt⟩, flush6_5 _, ?_⟩
  show i ∈ ((View.whole (Pipeline.arrRef spec6 5)).slice (win6_5.rect ⟨_, hlt⟩)).set
  rw [View.set_slice_whole, Rect.mem_set_unit]
  exact Dense.row_cover i (idx_facts6 _).2.2.2.2.2

variable (V : (c : Dev nD) → (b : Ref sig .tc) → Buf (Elt Ideal) ((c : Thread nD τ).loc b))

-- The dense layer of the five arrays the region finds.
abbrev den6 (c : Dev nD) : Cert.Spec.SN.Idx → EReal :=
  Cert.Spec.dense false (V c (Pipeline.arrRef spec6 0)) (V c (Pipeline.arrRef spec6 1)) (V c (Pipeline.arrRef spec6 2)) (V c (Pipeline.arrRef spec6 3))
    (fun f => V c (Pipeline.arrRef spec6 4) (ix2 (0 : Fin 1) f))

-- Entry j of the output's block at point t is the dense layer at j's place in the array.
theorem point6 (c : Dev nD) (t : Fin cfg6.N) (j : S5000x128.Idx) :
    out6_5 (iblk6 V c 0 t) (iblk6 V c 1 t) (iblk6 V c 2 t) (iblk6 V c 3 t) (iblk6 V c 4 t) j = den6 V c ((win6_5.rect t).emb j) := by
  have g := idx_facts6 t
  refine (congrFun (Dense.canon_ld k6_pay1 _ _ _ _ _ _ _ _) j).trans ?_
  unfold k6_pay1
  simp only [shapeCast_self]
  apply Dense.layer_point false (V c (Pipeline.arrRef spec6 0)) (V c (Pipeline.arrRef spec6 1)) (V c (Pipeline.arrRef spec6 2)) (V c (Pipeline.arrRef spec6 3))
    (V c (Pipeline.arrRef spec6 4)) (win6_0.rect_emb_val t) (win6_1.rect_emb_val t) (win6_2.rect_emb_val t) (win6_3.rect_emb_val t)
    (win6_4.rect_emb_val t) (win6_5.rect_emb_val t) g.1 g.2.1 g.2.2.1 g.2.2.2.1 g.2.2.2.2.1 g.2.2.2.2.2 j

-- Every point's block of the output is that block of the dense layer, and the blocks cover the output.
theorem final6 (V : (c : Dev nD) → (b : Ref sig .tc) → Buf (Elt Ideal) ((c : Thread nD τ).loc b)) (c : Dev nD) :
    (dat6 (F := Ideal) V c).arrAt 5 cfg6.N = Cert.Spec.dense false (V c (Pipeline.arrRef spec6 0)) (V c (Pipeline.arrRef spec6 1)) (V c (Pipeline.arrRef spec6 2)) (V c (Pipeline.arrRef spec6 3)) (fun f => V c (Pipeline.arrRef spec6 4) (ValueIdx.ix2 (0 : Fin 1) f)) :=
  (dat6 (F := Ideal) V c).arrAt_eq_of_cover 5 (den6 V c) (fun t _ => by
    refine (congrArg ((cfg6.win 5).cut (grid6.coords t)) (after6_5 V c t)).trans (funext fun j => ?_)
    apply point6) cover6

end Cert.KernelIdeal.Hand

end
-- ==== Proof.KI.PoolVal.lean ====
import proofs.«422910_j59356448031328_1_alg».proof.Proof.KI.PoolDefs
import proofs.«422910_j59356448031328_1_alg».proof.Proof.KI.Pool
import proofs.«422910_j59356448031328_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

theorem lhs_pool_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q

theorem lhs_pool_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide),
    dif_pos (show (1 : Fin S5000x512.rank) ∈ dot_S5000x512_S5000x128_S512x128_0_0_1_1_n_n.lhsNonContracting by decide)]
  rfl

theorem rhs_pool_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q

theorem rhs_pool_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide),
    dif_pos (show (1 : Fin S5000x128.rank) ∈ dot_S5000x512_S5000x128_S512x128_0_0_1_1_n_n.rhsNonContracting by decide)]
  rfl

theorem sitofp_bit_true : (FloatOps.sitofp .f32 (BitVec.setWidth 32 (BitVec.ofBool true)) : Ideal .f32) = 1 := by
  show ((((BitVec.setWidth 32 (BitVec.ofBool true)).toInt : ℤ) : ℝ) : EReal) = 1
  have e : (BitVec.setWidth 32 (BitVec.ofBool true)).toInt = 1 := by decide
  rw [e]; simp

theorem sitofp_bit_false : (FloatOps.sitofp .f32 (BitVec.setWidth 32 (BitVec.ofBool false)) : Ideal .f32) = 0 := by
  show ((((BitVec.setWidth 32 (BitVec.ofBool false)).toInt : ℤ) : ℝ) : EReal) = 0
  have e : (BitVec.setWidth 32 (BitVec.ofBool false)).toInt = 0 := by decide
  rw [e]; simp

theorem k7_pay2_apply (v4 : Vec Ideal S5000x1 .i32) (v11 : Vec Ideal S5000x128 .f32) (v14 : Vec Ideal S512x128 .f32)
    (g : Fin 512) (f : Fin 128) :
    k7_pay2 v4 v11 v14 (ix2 g f)
      = v14 (ix2 g f) + ∑ r : Fin 5000, (if v4 (ix2 r (0 : Fin 1)) = BitVec.ofNat 32 g.val then v11 (ix2 r f) else 0) := by
  unfold k7_pay2
  rw [shapeCast_self, addf_apply]
  simp only [matmul]
  rw [Ideal.matmul_constant_zero_apply,
    ← Equiv.sum_comp (contrEquiv1 dot_S5000x512_S5000x128_S512x128_0_0_1_1_n_n 5000 rfl rfl).symm]
  refine congrArg (v14 (ix2 g f) + ·) (Finset.sum_congr rfl fun k _ => ?_)
  have hk := contrEquiv1_symm_val dot_S5000x512_S5000x128_S512x128_0_0_1_1_n_n 5000 rfl rfl k
  have el : dot_S5000x512_S5000x128_S512x128_0_0_1_1_n_n.lhsIdx (ix2 g f)
      ((contrEquiv1 dot_S5000x512_S5000x128_S512x128_0_0_1_1_n_n 5000 rfl rfl).symm k) = ix2 k g :=
    funext fun a => Fin.ext (by
      match a with
      | ⟨0, _⟩ => exact (lhs_pool_0 _ _).trans hk
      | ⟨1, _⟩ => exact lhs_pool_1 _ _)
  have er : dot_S5000x512_S5000x128_S512x128_0_0_1_1_n_n.rhsIdx (ix2 g f)
      ((contrEquiv1 dot_S5000x512_S5000x128_S512x128_0_0_1_1_n_n 5000 rfl rfl).symm k) = ix2 k f :=
    funext fun a => Fin.ext (by
      match a with
      | ⟨0, _⟩ => exact (rhs_pool_0 _ _).trans hk
      | ⟨1, _⟩ => exact rhs_pool_1 _ _)
  rw [el, er, truncf_apply, truncf_apply, shapeCast_self, shapeCast_self, sitofp_apply, extui_apply]
  have hi : iota Kind.tc S5000x512 32 [1] iota_S5000x512_d1_w32 (ix2 k g) = BitVec.ofNat 32 g.val :=
    iota_single_apply _ _ _ _ _ _
  have hb : broadcastTo S5000x512 v4 broadcasts_S5000x1_S5000x512 (ix2 k g) = v4 (ix2 k (0 : Fin 1)) :=
    broadcastTo_apply _ _ _ _ (fun a => by
      match a with
      | ⟨0, _⟩ => rfl
      | ⟨1, _⟩ => rfl)
  have hc : cmpi CmpIPredicate.eq (iota Kind.tc S5000x512 32 [1] iota_S5000x512_d1_w32)
      (broadcastTo S5000x512 v4 broadcasts_S5000x1_S5000x512) (ix2 k g)
      = BitVec.ofBool (BitVec.ofNat 32 g.val == v4 (ix2 k (0 : Fin 1))) := by
    show IntOp.cmpi .eq _ _ = _
    rw [hi, hb]; rfl
  rw [hc]
  by_cases h : v4 (ix2 k (0 : Fin 1)) = BitVec.ofNat 32 g.val
  · rw [if_pos h, h, beq_self_eq_true, sitofp_bit_true, one_mul]
  · have hne : (BitVec.ofNat 32 g.val == v4 (ix2 k (0 : Fin 1))) = false := by
      rw [beq_eq_false_iff_ne]; exact fun e => h e.symm
    rw [if_neg h, hne, sitofp_bit_false, zero_mul]

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0 :=
  (by decide +kernel : ∀ t : Fin grid7.N, _)

theorem lt_ten7 (t : Fin cfg7.N) : t.val < 10 := lt_of_lt_of_eq t.isLt N_7

variable (V : (c : Dev nD) → (b : Ref sig .tc) → Buf (Elt Ideal) ((c : Thread nD τ).loc b))

theorem iblk7_0_apply (c : Dev nD) (t : Fin cfg7.N) (r : Fin 5000) :
    (iblk7 V c 0 t : Vec Ideal S5000x1 .i32) (ix2 r (0 : Fin 1))
      = V c (Pipeline.arrRef spec7 0)
          (ix2 (⟨5000 * t.val + r.val, by have := lt_ten7 t; omega⟩ : Fin 50000) (0 : Fin 1)) := by
  show V c (Pipeline.arrRef spec7 0) (((cfg7.win 0).blk t).view.emb (ix2 r (0 : Fin 1))) = _
  obtain ⟨e0, e1, -, -, -, -⟩ := idx_facts7 t
  refine congrArg _ (funext fun a => Fin.ext ?_)
  match a with
  | ⟨0, _⟩ => show win7_0.index t (0 : Fin 2) * 5000 + 1 * r.val = 5000 * t.val + r.val; omega
  | ⟨1, _⟩ => show win7_0.index t (1 : Fin 2) * 1 + 1 * 0 = 0; omega

theorem iblk7_1_apply (c : Dev nD) (t : Fin cfg7.N) (r : Fin 5000) (f : Fin 128) :
    (iblk7 V c 1 t : Vec Ideal S5000x128 .f32) (ix2 r f)
      = V c (Pipeline.arrRef spec7 1)
          (ix2 (⟨5000 * t.val + r.val, by have := lt_ten7 t; omega⟩ : Fin 50000) f) := by
  show V c (Pipeline.arrRef spec7 1) (((cfg7.win 1).blk t).view.emb (ix2 r f)) = _
  obtain ⟨-, -, e0, e1, -, -⟩ := idx_facts7 t
  refine congrArg _ (funext fun a => Fin.ext ?_)
  match a with
  | ⟨0, _⟩ => show win7_1.index t (0 : Fin 2) * 5000 + 1 * r.val = 5000 * t.val + r.val; omega
  | ⟨1, _⟩ => show win7_1.index t (1 : Fin 2) * 128 + 1 * f.val = f.val; omega

def poolTerm (c : Dev nD) (g : Fin 512) (f : Fin 128) (m : ℕ) : EReal :=
  if hm : m < 50000 then
    (if V c (Pipeline.arrRef spec7 0) (ix2 (⟨m, hm⟩ : Fin 50000) (0 : Fin 1)) = BitVec.ofNat 32 g.val
      then V c (Pipeline.arrRef spec7 1) (ix2 (⟨m, hm⟩ : Fin 50000) f) else 0)
  else 0

theorem k7_pay1_apply (g : Fin 512) (f : Fin 128) : k7_pay1 (F := Ideal) (ix2 g f) = 0 := by
  unfold k7_pay1
  rw [shapeCast_self, broadcast_apply]
  exact Ideal.ofBits_zero_f32

theorem point7_apply (c : Dev nD) (t : Fin cfg7.N) (v14 : Vec Ideal S512x128 .f32) (g : Fin 512) (f : Fin 128) :
    k7_pay2 (iblk7 V c 0 t) (iblk7 V c 1 t) v14 (ix2 g f)
      = v14 (ix2 g f) + ∑ i ∈ Finset.range 5000, poolTerm V c g f (5000 * t.val + i) := by
  refine (k7_pay2_apply (iblk7 V c 0 t) (iblk7 V c 1 t) v14 g f).trans ?_
  refine congrArg (v14 (ix2 g f) + ·) ?_
  rw [← Fin.sum_univ_eq_sum_range (fun i => poolTerm V c g f (5000 * t.val + i)) 5000]
  refine Finset.sum_congr rfl fun r _ => ?_
  have ht := lt_ten7 t
  rw [iblk7_0_apply V c t r, iblk7_1_apply V c t r f]
  unfold poolTerm
  rw [dif_pos (show 5000 * t.val + r.val < 50000 by omega)]

theorem acc7_apply (c : Dev nD) (n : ℕ) (h : n < cfg7.N) (g : Fin 512) (f : Fin 128) :
    acc7 (F := Ideal) V c n h (ix2 g f) = ∑ m ∈ Finset.range (5000 * (n + 1)), poolTerm V c g f m := by
  induction n with
  | zero =>
    rw [acc7_zero]
    refine (point7_apply V c ⟨0, h⟩ _ g f).trans ?_
    rw [k7_pay1_apply, zero_add]
    refine Finset.sum_congr rfl fun i _ => ?_
    show poolTerm V c g f (5000 * 0 + i) = _
    rw [Nat.mul_zero, Nat.zero_add]
  | succ n ih =>
    rw [acc7_succ]
    refine (point7_apply V c ⟨n + 1, h⟩ _ g f).trans ?_
    rw [ih (Nat.lt_of_succ_lt h), show 5000 * (n + 1 + 1) = 5000 * (n + 1) + 5000 by omega, Finset.sum_range_add]

theorem nine_lt7 : 9 < cfg7.N := lt_of_lt_of_eq (by decide) N_7.symm

theorem emb7_2 (t : Fin cfg7.N) (y : S512x128.Idx) : ((cfg7.win 2).blk t).view.emb y = y := by
  obtain ⟨-, -, -, -, e0, e1⟩ := idx_facts7 t
  funext a; apply Fin.ext
  match a with
  | ⟨0, _⟩ => show win7_2.index t (0 : Fin 2) * 512 + 1 * (y 0).val = (y 0).val; omega
  | ⟨1, _⟩ => show win7_2.index t (1 : Fin 2) * 128 + 1 * (y 1).val = (y 1).val; omega

theorem flushed7_2 (c : Dev nD) (t : Fin cfg7.N) (hf : (cfg7.win 2).flush t = true) :
    (dat7 V c).flushed 2 t = ((cfg7.win 2).blk t).view.read (Elt Ideal) (acc7 V c 9 nine_lt7) := by
  have ht : t.val = 9 := by have := (flush7_2 t).mp hf; have := lt_ten7 t; omega
  show (cfg7.win 2).cut (grid7.coords t) ((dat7 V c).after 2 t) = _
  rw [after7_2]
  obtain ⟨tv, htl⟩ := t
  dsimp only at ht
  subst ht
  funext y
  show acc7 V c 9 nine_lt7 y = acc7 V c 9 nine_lt7 (((cfg7.win 2).blk ⟨9, htl⟩).view.emb y)
  rw [emb7_2]

theorem arr7_2 (c : Dev nD) : (dat7 V c).arrAt 2 cfg7.N = acc7 V c 9 nine_lt7 :=
  (dat7 V c).arrAt_eq_of_cover 2 (acc7 V c 9 nine_lt7) (fun t hf => flushed7_2 V c t hf)
    (fun i => ⟨⟨9, nine_lt7⟩, (flush7_2 _).mpr rfl,
      (emb7_2 ⟨9, nine_lt7⟩ i) ▸ ((cfg7.win 2).blk ⟨9, nine_lt7⟩).view.emb_mem_set i⟩)

theorem word_eq_iff_toInt (x : BitVec 32) (g : ℕ) (hg : g < 500) : x = BitVec.ofNat 32 g ↔ x.toInt = (g : ℤ) := by
  have e := BitVec.toInt_eq_toNat_cond x
  have hx := x.isLt
  rw [← BitVec.toNat_inj, BitVec.toNat_ofNat, e]
  split <;> omega

theorem final7 (c : Dev nD) :
    extractStridedSlice S500x128 ![0, 0] ((dat7 (F := Ideal) V c).arrAt 2 cfg7.N) slices_S512x128_S500x128_0_0
      = Cert.Spec.pool (fun n => V c (Pipeline.arrRef spec7 0) (ix2 n (0 : Fin 1))) (V c (Pipeline.arrRef spec7 1)) := by
  rw [arr7_2]
  funext j
  obtain ⟨g, f, rfl⟩ : ∃ (g : Fin 500) (f : Fin 128), j = ix2 g f := ⟨j 0, j 1, eq_ix2 j⟩
  have hg := g.isLt
  refine (extractStridedSlice_apply ![0, 0] _ _ (ix2 g f) (ix2 (⟨g.val, by omega⟩ : Fin 512) f) (fun a => by
    match a with
    | ⟨0, _⟩ => show g.val = 0 + g.val; omega
    | ⟨1, _⟩ => show f.val = 0 + f.val; omega)).trans ?_
  show (acc7 (F := Ideal) V c 9 nine_lt7 (ix2 (⟨g.val, by omega⟩ : Fin 512) f) : EReal)
    = Cert.Spec.pool (fun n => V c (Pipeline.arrRef spec7 0) (ix2 n (0 : Fin 1))) (V c (Pipeline.arrRef spec7 1)) (ix2 g f)
  rw [acc7_apply]
  unfold Cert.Spec.pool
  rw [show 5000 * (9 + 1) = 50000 from rfl,
    ← Fin.sum_univ_eq_sum_range (fun m => poolTerm V c (⟨g.val, by omega⟩ : Fin 512) f m) 50000, Finset.sum_filter]
  refine Finset.sum_congr rfl fun m _ => ?_
  unfold poolTerm
  rw [dif_pos m.isLt]
  exact if_congr (word_eq_iff_toInt _ _ hg) rfl rfl

end Cert.KernelIdeal.Hand

end
-- ==== Proof.KI.Layers.lean ====
import proofs.«422910_j59356448031328_1_alg».proof.Proof.KI.Run
import proofs.«422910_j59356448031328_1_alg».proof.Proof.KI.Keep
import proofs.«422910_j59356448031328_1_alg».proof.Proof.KI.HostRead
import proofs.«422910_j59356448031328_1_alg».proof.Proof.KI.SageVal0
import proofs.«422910_j59356448031328_1_alg».proof.Proof.KI.SageVal1
import proofs.«422910_j59356448031328_1_alg».proof.Proof.KI.SageVal2
import proofs.«422910_j59356448031328_1_alg».proof.Proof.KI.SageVal3
import proofs.«422910_j59356448031328_1_alg».proof.Proof.KI.SageVal4
import proofs.«422910_j59356448031328_1_alg».proof.Proof.KI.SageVal5
import proofs.«422910_j59356448031328_1_alg».proof.Proof.KI.SageVal6
import proofs.«422910_j59356448031328_1_alg».proof.Proof.KI.PoolVal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

theorem layerK_0 (c : Dev nD) :
    W4 m c (Proc.devRef .tc main_v31) =
      Cert.Spec.dense true
        (aggT (F := Ideal) (m ((c : Thread nD τ).loc main_arg0)) (v1T (m ((c : Thread nD τ).loc main_arg1))) (v3T (m ((c : Thread nD τ).loc main_arg1)))
          (v11T (F := Ideal) (m ((c : Thread nD τ).loc main_arg1))))
        (m ((c : Thread nD τ).loc main_arg0)) (wlT0 (F := Ideal) (m ((c : Thread nD τ).loc main_arg3))) (wrT0 (F := Ideal) (m ((c : Thread nD τ).loc main_arg4)))
        (fun f => bT0 (F := Ideal) (m ((c : Thread nD τ).loc main_arg5)) (ix2 (0 : Fin 1) f)) := by
  refine (W4_arr m c 5).trans ((final0 (E3 m) c).trans ?_)
  show Cert.Spec.dense true (W3 m c (Proc.devRef .tc main_v23)) (W3 m c (Proc.devRef .tc main_arg0)) (W3 m c (Proc.devRef .tc main_v25))
    (W3 m c (Proc.devRef .tc main_v27)) (fun f => W3 m c (Proc.devRef .tc main_v30) (ix2 (0 : Fin 1) f)) = _
  rw [entry0_agg, entry0_h, entry0_wl, entry0_wr, entry0_b]

theorem layerK_1 (c : Dev nD) :
    W6 m c (Proc.devRef .tc main_v51) =
      Cert.Spec.dense true
        (aggT (F := Ideal) (W4 m c (Proc.devRef .tc main_v31)) (v1T (m ((c : Thread nD τ).loc main_arg1))) (v3T (m ((c : Thread nD τ).loc main_arg1)))
          (v11T (F := Ideal) (m ((c : Thread nD τ).loc main_arg1))))
        (W4 m c (Proc.devRef .tc main_v31)) (wlT1 (F := Ideal) (m ((c : Thread nD τ).loc main_arg3))) (wrT1 (F := Ideal) (m ((c : Thread nD τ).loc main_arg4)))
        (fun f => bT1 (F := Ideal) (m ((c : Thread nD τ).loc main_arg5)) (ix2 (0 : Fin 1) f)) := by
  refine (W6_arr m c 5).trans ((final1 (E5 m) c).trans ?_)
  show Cert.Spec.dense true (W5 m c (Proc.devRef .tc main_v43)) (W5 m c (Proc.devRef .tc main_v31)) (W5 m c (Proc.devRef .tc main_v45))
    (W5 m c (Proc.devRef .tc main_v47)) (fun f => W5 m c (Proc.devRef .tc main_v50) (ix2 (0 : Fin 1) f)) = _
  rw [entry1_aggL, keepH1, entry1_wlL, entry1_wrL, entry1_bL]

theorem layerK_2 (c : Dev nD) :
    W8 m c (Proc.devRef .tc main_v71) =
      Cert.Spec.dense true
        (aggT (F := Ideal) (W6 m c (Proc.devRef .tc main_v51)) (v1T (m ((c : Thread nD τ).loc main_arg1))) (v3T (m ((c : Thread nD τ).loc main_arg1)))
          (v11T (F := Ideal) (m ((c : Thread nD τ).loc main_arg1))))
        (W6 m c (Proc.devRef .tc main_v51)) (wlT2 (F := Ideal) (m ((c : Thread nD τ).loc main_arg3))) (wrT2 (F := Ideal) (m ((c : Thread nD τ).loc main_arg4)))
        (fun f => bT2 (F := Ideal) (m ((c : Thread nD τ).loc main_arg5)) (ix2 (0 : Fin 1) f)) := by
  refine (W8_arr m c 5).trans ((final2 (E7 m) c).trans ?_)
  show Cert.Spec.dense true (W7 m c (Proc.devRef .tc main_v63)) (W7 m c (Proc.devRef .tc main_v51)) (W7 m c (Proc.devRef .tc main_v65))
    (W7 m c (Proc.devRef .tc main_v67)) (fun f => W7 m c (Proc.devRef .tc main_v70) (ix2 (0 : Fin 1) f)) = _
  rw [entry2_aggL, keepH2, entry2_wlL, entry2_wrL, entry2_bL]

theorem layerK_3 (c : Dev nD) :
    W10 m c (Proc.devRef .tc main_v91) =
      Cert.Spec.dense true
        (aggT (F := Ideal) (W8 m c (Proc.devRef .tc main_v71)) (v1T (m ((c : Thread nD τ).loc main_arg1))) (v3T (m ((c : Thread nD τ).loc main_arg1)))
          (v11T (F := Ideal) (m ((c : Thread nD τ).loc main_arg1))))
        (W8 m c (Proc.devRef .tc main_v71)) (wlT3 (F := Ideal) (m ((c : Thread nD τ).loc main_arg3))) (wrT3 (F := Ideal) (m ((c : Thread nD τ).loc main_arg4)))
        (fun f => bT3 (F := Ideal) (m ((c : Thread nD τ).loc main_arg5)) (ix2 (0 : Fin 1) f)) := by
  refine (W10_arr m c 5).trans ((final3 (E9 m) c).trans ?_)
  show Cert.Spec.dense true (W9 m c (Proc.devRef .tc main_v83)) (W9 m c (Proc.devRef .tc main_v71)) (W9 m c (Proc.devRef .tc main_v85))
    (W9 m c (Proc.devRef .tc main_v87)) (fun f => W9 m c (Proc.devRef .tc main_v90) (ix2 (0 : Fin 1) f)) = _
  rw [entry3_aggL, keepH3, entry3_wlL, entry3_wrL, entry3_bL]

theorem layerK_4 (c : Dev nD) :
    W12 m c (Proc.devRef .tc main_v111) =
      Cert.Spec.dense true
        (aggT (F := Ideal) (W10 m c (Proc.devRef .tc main_v91)) (v1T (m ((c : Thread nD τ).loc main_arg1))) (v3T (m ((c : Thread nD τ).loc main_arg1)))
          (v11T (F := Ideal) (m ((c : Thread nD τ).loc main_arg1))))
        (W10 m c (Proc.devRef .tc main_v91)) (wlT4 (F := Ideal) (m ((c : Thread nD τ).loc main_arg3))) (wrT4 (F := Ideal) (m ((c : Thread nD τ).loc main_arg4)))
        (fun f => bT4 (F := Ideal) (m ((c : Thread nD τ).loc main_arg5)) (ix2 (0 : Fin 1) f)) := by
  refine (W12_arr m c 5).trans ((final4 (E11 m) c).trans ?_)
  show Cert.Spec.dense true (W11 m c (Proc.devRef .tc main_v103)) (W11 m c (Proc.devRef .tc main_v91)) (W11 m c (Proc.devRef .tc main_v105))
    (W11 m c (Proc.devRef .tc main_v107)) (fun f => W11 m c (Proc.devRef .tc main_v110) (ix2 (0 : Fin 1) f)) = _
  rw [entry4_aggL, keepH4, entry4_wlL, entry4_wrL, entry4_bL]

theorem layerK_5 (c : Dev nD) :
    W14 m c (Proc.devRef .tc main_v131) =
      Cert.Spec.dense true
        (aggT (F := Ideal) (W12 m c (Proc.devRef .tc main_v111)) (v1T (m ((c : Thread nD τ).loc main_arg1))) (v3T (m ((c : Thread nD τ).loc main_arg1)))
          (v11T (F := Ideal) (m ((c : Thread nD τ).loc main_arg1))))
        (W12 m c (Proc.devRef .tc main_v111)) (wlT5 (F := Ideal) (m ((c : Thread nD τ).loc main_arg3))) (wrT5 (F := Ideal) (m ((c : Thread nD τ).loc main_arg4)))
        (fun f => bT5 (F := Ideal) (m ((c : Thread nD τ).loc main_arg5)) (ix2 (0 : Fin 1) f)) := by
  refine (W14_arr m c 5).trans ((final5 (E13 m) c).trans ?_)
  show Cert.Spec.dense true (W13 m c (Proc.devRef .tc main_v123)) (W13 m c (Proc.devRef .tc main_v111)) (W13 m c (Proc.devRef .tc main_v125))
    (W13 m c (Proc.devRef .tc main_v127)) (fun f => W13 m c (Proc.devRef .tc main_v130) (ix2 (0 : Fin 1) f)) = _
  rw [entry5_aggL, keepH5, entry5_wlL, entry5_wrL, entry5_bL]

theorem layerK_6 (c : Dev nD) :
    W16 m c (Proc.devRef .tc main_v151) =
      Cert.Spec.dense false
        (aggT (F := Ideal) (W14 m c (Proc.devRef .tc main_v131)) (v1T (m ((c : Thread nD τ).loc main_arg1))) (v3T (m ((c : Thread nD τ).loc main_arg1)))
          (v11T (F := Ideal) (m ((c : Thread nD τ).loc main_arg1))))
        (W14 m c (Proc.devRef .tc main_v131)) (wlT6 (F := Ideal) (m ((c : Thread nD τ).loc main_arg3))) (wrT6 (F := Ideal) (m ((c : Thread nD τ).loc main_arg4)))
        (fun f => bT6 (F := Ideal) (m ((c : Thread nD τ).loc main_arg5)) (ix2 (0 : Fin 1) f)) := by
  refine (W16_arr m c 5).trans ((final6 (E15 m) c).trans ?_)
  show Cert.Spec.dense false (W15 m c (Proc.devRef .tc main_v143)) (W15 m c (Proc.devRef .tc main_v131)) (W15 m c (Proc.devRef .tc main_v145))
    (W15 m c (Proc.devRef .tc main_v147)) (fun f => W15 m c (Proc.devRef .tc main_v150) (ix2 (0 : Fin 1) f)) = _
  rw [entry6_aggL, keepH6, entry6_wlL, entry6_wrL, entry6_bL]

theorem shapeCast_col_apply {α : Type} {a : ℕ} (x : (⟨1, ![a]⟩ : Shape).Idx → α) (h : (⟨1, ![a]⟩ : Shape).ShapeCasts ⟨2, ![a, 1]⟩)
    (n : Fin a) (u : Fin 1) : shapeCast ⟨2, ![a, 1]⟩ x h (ix2 n u) = x (ix1 n) :=
  shapeCast_apply x h _ _ (by
    have hu : u.val = 0 := by omega
    rw [Shape.rowMajor_val_two, Shape.rowMajor_val_one]
    show n.val = n.val * 1 + u.val
    rw [hu, Nat.mul_one, Nat.add_zero])

theorem poolK (c : Dev nD) :
    extractStridedSlice S500x128 ![0, 0] (W18 m c (Proc.devRef .tc main_v153)) slices_S512x128_S500x128_0_0 =
      Cert.Spec.pool (fun n => m ((c : Thread nD τ).loc main_arg2) (ix1 n)) (W16 m c (Proc.devRef .tc main_v151)) := by
  have h1 : W18 m c (Proc.devRef .tc main_v153) = (dat7 (E17 m) c).arrAt 2 cfg7.N := W18_arr m c 2
  rw [h1, final7 (E17 m) c]
  show Cert.Spec.pool (fun n => W17 m c (Proc.devRef .tc main_v152) (ix2 n (0 : Fin 1))) (W17 m c (Proc.devRef .tc main_v151)) = _
  rw [entry7_batchL, keepH7]
  congr 1
  funext n
  exact shapeCast_col_apply _ _ n 0

theorem outK (c : Dev nD) :
    W19 m c (Proc.devRef .tc main_v158) =
      headT (F := Ideal) (Cert.Spec.pool (fun n => m ((c : Thread nD τ).loc main_arg2) (ix1 n)) (W16 m c (Proc.devRef .tc main_v151)))
        (m ((c : Thread nD τ).loc main_arg6)) (m ((c : Thread nD τ).loc main_arg7)) := by
  rw [head19L, poolK]

end Cert.KernelIdeal.Hand

end
-- ==== Proof.RefDense.lean ====
import proofs.«422910_j59356448031328_1_alg».proof.ReferenceIdeal
import proofs.«422910_j59356448031328_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Idealize.ShloMosaic Idealize.ShloMosaic.ValueIdx

variable [Facts₀]
open Facts₀

theorem lhs_dot_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil), dif_pos (show (0 : Fin S50000x128.rank) ∈ dot_S50000x128_S128x128_S50000x128_1_0_0_1_n_n.lhsNonContracting from List.mem_singleton.mpr rfl)]
  rfl
theorem lhs_dot_1 (i : S50000x128.Idx) (q : dot_S50000x128_S128x128_S50000x128_1_0_0_1_n_n.contr.Idx) :
    (dot_S50000x128_S128x128_S50000x128_1_0_0_1_n_n.lhsIdx i q 1).val = (q ⟨0, by rw [DotDims.rank_contr]; exact Nat.one_pos⟩).val :=
  dot_S50000x128_S128x128_S50000x128_1_0_0_1_n_n.lhsIdx_val_of_single rfl i q
theorem rhs_dot_0 (i : S50000x128.Idx) (q : dot_S50000x128_S128x128_S50000x128_1_0_0_1_n_n.contr.Idx) :
    (dot_S50000x128_S128x128_S50000x128_1_0_0_1_n_n.rhsIdx i q 0).val = (q ⟨0, by rw [DotDims.rank_contr]; exact Nat.one_pos⟩).val :=
  dot_S50000x128_S128x128_S50000x128_1_0_0_1_n_n.rhsIdx_val_of_single rfl i q
theorem rhs_dot_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil), dif_pos (show (1 : Fin S128x128.rank) ∈ dot_S50000x128_S128x128_S50000x128_1_0_0_1_n_n.rhsNonContracting from List.mem_singleton.mpr rfl)]
  rfl

theorem dot_apply (x : FVec Ideal S50000x128 .f32) (w : FVec Ideal S128x128 .f32) (p : Fin 50000) (q : Fin 128) :
    Host.dotGeneral dot_S50000x128_S128x128_S50000x128_1_0_0_1_n_n none x w (ix2 p q)
      = ∑ k : Fin 128, x (ix2 p k) * w (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

theorem bias_apply (b : FVec Ideal S128 .f32) (p : Fin 50000) (q : Fin 128) :
    broadcastInDim S50000x128 ![0, 1] bcast_S1x128_S50000x128_0_1 (broadcastInDim S1x128 ![1] bcast_S128_S1x128_1 b) (ix2 p q) = b (ix1 q) := by
  rw [broadcastInDim_apply (![0, 1] : Fin 2 → Fin S50000x128.rank) bcast_S1x128_S50000x128_0_1 _ (ix2 p q) (ix2 (n0 := 1) (n1 := 128) 0 q)
        (fun a => by match a with | ⟨0, _⟩ => rfl | ⟨1, _⟩ => rfl),
      broadcastInDim_apply (![1] : Fin 1 → Fin S1x128.rank) bcast_S128_S1x128_1 b (ix2 (n0 := 1) (n1 := 128) 0 q) (ix1 q)
        (fun a => by match a with | ⟨0, _⟩ => rfl)]

theorem zero_apply (i : S50000x128.Idx) :
    broadcastInDim S50000x128 ![] bcast_S_S50000x128 (constant (F := Ideal) S_ .f32 0x00000000#32) i = (0 : EReal) := by
  rw [broadcastInDim_apply (![] : Fin 0 → Fin S50000x128.rank) bcast_S_S50000x128 _ i ix0 (fun a => a.elim0), constant_apply, Ideal.ofBits_zero_f32]

theorem refDense_last (agg h : FVec Ideal S50000x128 .f32) (wl wr : FVec Ideal S128x128 .f32) (b : FVec Ideal S128 .f32) :
    addf (addf (Host.dotGeneral dot_S50000x128_S128x128_S50000x128_1_0_0_1_n_n none agg wl)
          (broadcastInDim S50000x128 ![0, 1] bcast_S1x128_S50000x128_0_1 (broadcastInDim S1x128 ![1] bcast_S128_S1x128_1 b)))
        (Host.dotGeneral dot_S50000x128_S128x128_S50000x128_1_0_0_1_n_n none h wr)
      = Cert.Spec.dense false agg h wl wr (fun f => b (ix1 f)) := by
  funext i
  obtain ⟨p, q, rfl⟩ : ∃ (p : Fin 50000) (q : Fin 128), i = ix2 p q := ⟨i 0, i 1, eq_ix2 i⟩
  rw [addf_apply, addf_apply, dot_apply, dot_apply, bias_apply]
  show _ = ((∑ k : Fin 128, agg (ix2 p k) * wl (ix2 k q)) + (∑ k : Fin 128, h (ix2 p k) * wr (ix2 k q))) + b (ix1 q)
  exact add_right_comm _ _ _

theorem refDense_relu (agg h : FVec Ideal S50000x128 .f32) (wl wr : FVec Ideal S128x128 .f32) (b : FVec Ideal S128 .f32) :
    maximumf (addf (addf (Host.dotGeneral dot_S50000x128_S128x128_S50000x128_1_0_0_1_n_n none agg wl)
          (broadcastInDim S50000x128 ![0, 1] bcast_S1x128_S50000x128_0_1 (broadcastInDim S1x128 ![1] bcast_S128_S1x128_1 b)))
        (Host.dotGeneral dot_S50000x128_S128x128_S50000x128_1_0_0_1_n_n none h wr))
      (broadcastInDim S50000x128 ![] bcast_S_S50000x128 (constant (F := Ideal) S_ .f32 0x00000000#32))
      = Cert.Spec.dense true agg h wl wr (fun f => b (ix1 f)) := by
  funext i
  rw [maximumf_apply, zero_apply, refDense_last]
  rfl

theorem siIdx_0 (j : S50000x128.Idx) (c : Fin scatter_S500x128_S50000x1_S50000x128_1_0_0_1.scatterDimsToOperandDims.length) :
    scatter_S500x128_S50000x1_S50000x128_1_0_0_1.siIdx j c = ix2 (n0 := 50000) (n1 := 1) (j 0) 0 := by
  funext b
  apply Fin.ext
  match b with
  | ⟨0, _⟩ => rfl
  | ⟨1, _⟩ =>
    have := c.isLt
    show c.val = 0
    have h1 : scatter_S500x128_S50000x1_S50000x128_1_0_0_1.scatterDimsToOperandDims.length = 1 := rfl
    omega

theorem start_0 (j : S50000x128.Idx) (idx : IVec S50000x1 32) :
    scatter_S500x128_S50000x1_S50000x128_1_0_0_1.start j idx 0 = (idx (ix2 (n0 := 50000) (n1 := 1) (j 0) 0)).toInt := by
  unfold ScatterDims.start
  rw [dif_pos (show (0 : Fin S500x128.rank) ∈ scatter_S500x128_S50000x1_S50000x128_1_0_0_1.scatterDimsToOperandDims from List.mem_singleton.mpr rfl), siIdx_0]

theorem start_1 (j : S50000x128.Idx) (idx : IVec S50000x1 32) :
    scatter_S500x128_S50000x1_S50000x128_1_0_0_1.start j idx 1 = 0 := by
  unfold ScatterDims.start
  rw [dif_neg (show ¬(1 : Fin S500x128.rank) ∈ scatter_S500x128_S50000x1_S50000x128_1_0_0_1.scatterDimsToOperandDims from by
    intro h; exact absurd (List.mem_singleton.mp h) (by decide))]

theorem window_0 (j : S50000x128.Idx) : scatter_S500x128_S50000x1_S50000x128_1_0_0_1.window j 0 = 0 := by
  unfold ScatterDims.window
  rw [dif_neg (show ¬(0 : Fin S500x128.rank) ∈ scatter_S500x128_S50000x1_S50000x128_1_0_0_1.sKept from
    (show ¬(0 : Fin S500x128.rank) ∈ S500x128.kept ([0] : List (Fin S500x128.rank)) by decide))]

theorem window_1 (j : S50000x128.Idx) : scatter_S500x128_S50000x1_S50000x128_1_0_0_1.window j 1 = (j 1).val := by
  unfold ScatterDims.window
  rw [dif_pos (show (1 : Fin S500x128.rank) ∈ scatter_S500x128_S50000x1_S50000x128_1_0_0_1.sKept from
    (show (1 : Fin S500x128.rank) ∈ S500x128.kept ([0] : List (Fin S500x128.rank)) by decide))]
  rfl

theorem zero500_apply (i : S500x128.Idx) :
    broadcastInDim S500x128 ![] bcast_S_S500x128 (constant (F := Ideal) S_ .f32 0x00000000#32) i = (0 : EReal) := by
  rw [broadcastInDim_apply (![] : Fin 0 → Fin S500x128.rank) bcast_S_S500x128 _ i ix0 (fun a => a.elim0), constant_apply, Ideal.ofBits_zero_f32]

theorem col_apply (batch : IVec S50000 32) (n : Fin 50000) :
    broadcastInDim S50000x1 ![0] bcast_S50000_S50000x1_0 batch (ix2 (n0 := 50000) (n1 := 1) n 0) = batch (ix1 n) := by
  rw [broadcastInDim_apply (![0] : Fin 1 → Fin S50000x1.rank) bcast_S50000_S50000x1_0 batch (ix2 (n0 := 50000) (n1 := 1) n 0) (ix1 n)
        (fun a => by match a with | ⟨0, _⟩ => rfl)]

theorem resultIdx_iff (idx : IVec S50000x1 32) (n : Fin 50000) (f : Fin 128) (g : Fin 500) (f' : Fin 128) :
    scatter_S500x128_S50000x1_S50000x128_1_0_0_1.resultIdx? (ix2 n f) idx = some (ix2 g f')
      ↔ (idx (ix2 (n0 := 50000) (n1 := 1) n 0)).toInt = ((g.val : Nat) : Int) ∧ f = f' := by
  have s0 : scatter_S500x128_S50000x1_S50000x128_1_0_0_1.start (ix2 n f) idx 0 = (idx (ix2 (n0 := 50000) (n1 := 1) n 0)).toInt := start_0 _ _
  have s1 : scatter_S500x128_S50000x1_S50000x128_1_0_0_1.start (ix2 n f) idx 1 = 0 := start_1 _ _
  have w0 : scatter_S500x128_S50000x1_S50000x128_1_0_0_1.window (ix2 n f) 0 = 0 := window_0 _
  have w1 : scatter_S500x128_S50000x1_S50000x128_1_0_0_1.window (ix2 n f) 1 = f.val := window_1 _
  have hg : g.val < 500 := g.isLt
  have hf : f.val < 128 := f.isLt
  unfold ScatterDims.resultIdx?
  by_cases h : ∀ a, 0 ≤ scatter_S500x128_S50000x1_S50000x128_1_0_0_1.start (ix2 n f) idx a + scatter_S500x128_S50000x1_S50000x128_1_0_0_1.window (ix2 n f) a
      ∧ scatter_S500x128_S50000x1_S50000x128_1_0_0_1.start (ix2 n f) idx a + scatter_S500x128_S50000x1_S50000x128_1_0_0_1.window (ix2 n f) a < S500x128.size a
  · rw [dif_pos h]
    have h0 := h 0
    rw [s0, w0] at h0
    constructor
    · intro e
      have e' := Option.some.inj e
      have e0 : (scatter_S500x128_S50000x1_S50000x128_1_0_0_1.start (ix2 n f) idx 0 + scatter_S500x128_S50000x1_S50000x128_1_0_0_1.window (ix2 n f) 0).toNat = g.val :=
        congrArg (fun x : S500x128.Idx => (x 0).val) e'
      have e1 : (scatter_S500x128_S50000x1_S50000x128_1_0_0_1.start (ix2 n f) idx 1 + scatter_S500x128_S50000x1_S50000x128_1_0_0_1.window (ix2 n f) 1).toNat = f'.val :=
        congrArg (fun x : S500x128.Idx => (x 1).val) e'
      rw [s0, w0] at e0
      rw [s1, w1] at e1
      refine ⟨by omega, Fin.ext (by omega)⟩
    · rintro ⟨hb, rfl⟩
      refine congrArg some (funext fun a => Fin.ext ?_)
      have t0 : (scatter_S500x128_S50000x1_S50000x128_1_0_0_1.start (ix2 n f) idx 0 + scatter_S500x128_S50000x1_S50000x128_1_0_0_1.window (ix2 n f) 0).toNat = g.val := by
        rw [s0, w0]; omega
      have t1 : (scatter_S500x128_S50000x1_S50000x128_1_0_0_1.start (ix2 n f) idx 1 + scatter_S500x128_S50000x1_S50000x128_1_0_0_1.window (ix2 n f) 1).toNat = f.val := by
        rw [s1, w1]; omega
      match a with
      | ⟨0, _⟩ => exact t0
      | ⟨1, _⟩ => exact t1
  · rw [dif_neg h]
    constructor
    · intro e; exact absurd e (by simp)
    · rintro ⟨hb, rfl⟩
      exfalso
      apply h
      have t0 : 0 ≤ scatter_S500x128_S50000x1_S50000x128_1_0_0_1.start (ix2 n f) idx 0 + scatter_S500x128_S50000x1_S50000x128_1_0_0_1.window (ix2 n f) 0
          ∧ scatter_S500x128_S50000x1_S50000x128_1_0_0_1.start (ix2 n f) idx 0 + scatter_S500x128_S50000x1_S50000x128_1_0_0_1.window (ix2 n f) 0 < S500x128.size 0 := by
        rw [s0, w0]; show _ ∧ _ < ((500 : Nat) : Int); omega
      have t1 : 0 ≤ scatter_S500x128_S50000x1_S50000x128_1_0_0_1.start (ix2 n f) idx 1 + scatter_S500x128_S50000x1_S50000x128_1_0_0_1.window (ix2 n f) 1
          ∧ scatter_S500x128_S50000x1_S50000x128_1_0_0_1.start (ix2 n f) idx 1 + scatter_S500x128_S50000x1_S50000x128_1_0_0_1.window (ix2 n f) 1 < S500x128.size 1 := by
        rw [s1, w1]; show _ ∧ _ < ((128 : Nat) : Int); omega
      intro a
      match a with
      | ⟨0, _⟩ => exact t0
      | ⟨1, _⟩ => exact t1

theorem key_iff (batch : IVec S50000 32) (n : Fin 50000) (f : Fin 128) (g : Fin 500) (f' : Fin 128) :
    scatter_S500x128_S50000x1_S50000x128_1_0_0_1.resultIdx? (ix2 n f) (broadcastInDim S50000x1 ![0] bcast_S50000_S50000x1_0 batch) = some (ix2 g f')
      ↔ (batch (ix1 n)).toInt = ((g.val : Nat) : Int) ∧ f = f' := by
  have h := resultIdx_iff (broadcastInDim S50000x1 ![0] bcast_S50000_S50000x1_0 batch) n f g f'
  rw [col_apply batch n] at h
  exact h

theorem refPool (batch : IVec S50000 32) (h : FVec Ideal S50000x128 .f32) :
    Host.scatterAdd scatter_S500x128_S50000x1_S50000x128_1_0_0_1 (broadcastInDim S500x128 ![] bcast_S_S500x128 (constant (F := Ideal) S_ .f32 0x00000000#32))
        (broadcastInDim S50000x1 ![0] bcast_S50000_S50000x1_0 batch) h
      = Cert.Spec.pool (fun n => batch (ix1 n)) h := by
  funext i
  obtain ⟨g, f', rfl⟩ : ∃ (g : Fin 500) (f' : Fin 128), i = ix2 g f' := ⟨i 0, i 1, eq_ix2 i⟩
  unfold Host.scatterAdd
  rw [Ideal.hostScatterAdd_def]
  unfold Ideal.hostScatterAdd Cert.Spec.pool
  rw [zero500_apply, zero_add, Finset.sum_filter, Finset.sum_filter, sum_idx2]
  refine Finset.sum_congr rfl fun n _ => ?_
  have key : ∀ f : Fin 128, scatter_S500x128_S50000x1_S50000x128_1_0_0_1.resultIdx? (ix2 n f) (broadcastInDim S50000x1 ![0] bcast_S50000_S50000x1_0 batch) = some (ix2 g f')
      ↔ (batch (ix1 n)).toInt = ((g.val : Nat) : Int) ∧ f = f' := fun f =>
    key_iff batch n f g f'
  by_cases hq : (batch (ix1 n)).toInt = ((g.val : Nat) : Int)
  · rw [if_pos hq, Finset.sum_eq_single f']
    · rw [if_pos ((key f').mpr ⟨hq, rfl⟩)]
    · intro f _ hne
      rw [if_neg (fun e => hne ((key f).mp e).2)]
    · intro habs; exact absurd (Finset.mem_univ _) habs
  · rw [if_neg hq]
    refine Finset.sum_eq_zero fun f _ => ?_
    rw [if_neg (fun e => hq ((key f).mp e).1)]

end Cert.ReferenceIdeal.Hand

end
-- ==== Proof.RefRead.lean ====
import proofs.«422910_j59356448031328_1_alg».proof.Proof.RefRunP
import proofs.«422910_j59356448031328_1_alg».proof.Proof.RefDense
import Idealize.ShloMosaic.Lib.StableHlo.Run

noncomputable section

namespace Cert.ReferenceIdeal.Hand

open Cert.ReferenceIdeal Cert.ReferenceIdeal.Gen Cert.ReferenceIdeal.ValueP Idealize.ShloMosaic Idealize.ShloMosaic.TcCoe Idealize.SL.Sem Idealize.ShloMosaic.StableHlo
open Idealize.ShloMosaic.ValueIdx

variable {F : FTy → Type} [FloatOps F]

def v1T (e : IVec S2x800000 32) : IVec S800000 32 :=
  shapeCast _ (extractStridedSlice S1x800000 ![0, 0] e slices_S2x800000_S1x800000_0_0) shapeCasts_S1x800000_S800000

def v3T (e : IVec S2x800000 32) : IVec S800000 32 :=
  shapeCast _ (extractStridedSlice S1x800000 ![1, 0] e slices_S2x800000_S1x800000_1_0) shapeCasts_S1x800000_S800000

def v11T (e : IVec S2x800000 32) : FVec F S50000x1 .f32 :=
  broadcastInDim S50000x1 ![0] bcast_S50000_S50000x1_0
    (Host.divf (broadcastInDim S50000 ![] bcast_S_S50000 (constant S_ .f32 0x3F800000#32))
      (maximumf (broadcastInDim S50000 ![] bcast_S_S50000 (constant S_ .f32 0x3F800000#32))
        (Host.scatterAdd scatter_S50000_S800000x1_S800000_n_0_0_1
          (broadcastInDim S50000 ![] bcast_S_S50000 (constant S_ .f32 0x00000000#32))
          (broadcastInDim S800000x1 ![0] bcast_S800000_S800000x1_0 (v3T e))
          (broadcastInDim S800000 ![] bcast_S_S800000 (constant S_ .f32 0x3F800000#32)))))

def aggT (h : FVec F S50000x128 .f32) (v1 v3 : IVec S800000 32) (v11 : FVec F S50000x1 .f32) : FVec F S50000x128 .f32 :=
  mulf (Host.scatterAdd scatter_S50000x128_S800000x1_S800000x128_1_0_0_1
      (broadcastInDim S50000x128 ![] bcast_S_S50000x128 (constant S_ .f32 0x00000000#32))
      (broadcastInDim S800000x1 ![0] bcast_S800000_S800000x1_0 v3)
      (Host.gather gather_S50000x128_S800000x1_S800000x128_1_0_n_n_0_1_1128 h
        (broadcastInDim S800000x1 ![0] bcast_S800000_S800000x1_0
          (select (cmpi .slt v1 (broadcastInDim S800000 ![] bcast_S_S800000 (constantI S_ 32 0#32)))
            (addi v1 (broadcastInDim S800000 ![] bcast_S_S800000 (constantI S_ 32 50000#32))) v1))))
    (broadcastInDim S50000x128 ![0, 1] bcast_S50000x1_S50000x128_0_1 v11)

def wlT0 (w : FVec F S7x128x128 .f32) : FVec F S128x128 .f32 :=
  shapeCast _ (extractStridedSlice S1x128x128 ![0, 0, 0] w slices_S7x128x128_S1x128x128_0_0_0) shapeCasts_S1x128x128_S128x128

def bT0 (b : FVec F S7x128 .f32) : FVec F S128 .f32 :=
  shapeCast _ (extractStridedSlice S1x128 ![0, 0] b slices_S7x128_S1x128_0_0) shapeCasts_S1x128_S128

def wlT1 (w : FVec F S7x128x128 .f32) : FVec F S128x128 .f32 :=
  shapeCast _ (extractStridedSlice S1x128x128 ![1, 0, 0] w slices_S7x128x128_S1x128x128_1_0_0) shapeCasts_S1x128x128_S128x128

def bT1 (b : FVec F S7x128 .f32) : FVec F S128 .f32 :=
  shapeCast _ (extractStridedSlice S1x128 ![1, 0] b slices_S7x128_S1x128_1_0) shapeCasts_S1x128_S128

def wlT2 (w : FVec F S7x128x128 .f32) : FVec F S128x128 .f32 :=
  shapeCast _ (extractStridedSlice S1x128x128 ![2, 0, 0] w slices_S7x128x128_S1x128x128_2_0_0) shapeCasts_S1x128x128_S128x128

def bT2 (b : FVec F S7x128 .f32) : FVec F S128 .f32 :=
  shapeCast _ (extractStridedSlice S1x128 ![2, 0] b slices_S7x128_S1x128_2_0) shapeCasts_S1x128_S128

def wlT3 (w : FVec F S7x128x128 .f32) : FVec F S128x128 .f32 :=
  shapeCast _ (extractStridedSlice S1x128x128 ![3, 0, 0] w slices_S7x128x128_S1x128x128_3_0_0) shapeCasts_S1x128x128_S128x128

def bT3 (b : FVec F S7x128 .f32) : FVec F S128 .f32 :=
  shapeCast _ (extractStridedSlice S1x128 ![3, 0] b slices_S7x128_S1x128_3_0) shapeCasts_S1x128_S128

def wlT4 (w : FVec F S7x128x128 .f32) : FVec F S128x128 .f32 :=
  shapeCast _ (extractStridedSlice S1x128x128 ![4, 0, 0] w slices_S7x128x128_S1x128x128_4_0_0) shapeCasts_S1x128x128_S128x128

def bT4 (b : FVec F S7x128 .f32) : FVec F S128 .f32 :=
  shapeCast _ (extractStridedSlice S1x128 ![4, 0] b slices_S7x128_S1x128_4_0) shapeCasts_S1x128_S128

def wlT5 (w : FVec F S7x128x128 .f32) : FVec F S128x128 .f32 :=
  shapeCast _ (extractStridedSlice S1x128x128 ![5, 0, 0] w slices_S7x128x128_S1x128x128_5_0_0) shapeCasts_S1x128x128_S128x128

def bT5 (b : FVec F S7x128 .f32) : FVec F S128 .f32 :=
  shapeCast _ (extractStridedSlice S1x128 ![5, 0] b slices_S7x128_S1x128_5_0) shapeCasts_S1x128_S128

def wlT6 (w : FVec F S7x128x128 .f32) : FVec F S128x128 .f32 :=
  shapeCast _ (extractStridedSlice S1x128x128 ![6, 0, 0] w slices_S7x128x128_S1x128x128_6_0_0) shapeCasts_S1x128x128_S128x128

def bT6 (b : FVec F S7x128 .f32) : FVec F S128 .f32 :=
  shapeCast _ (extractStridedSlice S1x128 ![6, 0] b slices_S7x128_S1x128_6_0) shapeCasts_S1x128_S128

def headT (p : FVec F S500x128 .f32) (wo : FVec F S128x2 .f32) (bo : FVec F S2 .f32) : FVec F S500x2 .f32 :=
  addf (Host.dotGeneral dot_S500x128_S128x2_S500x2_1_0_0_1_n_n none p wo)
    (broadcastInDim S500x2 ![0, 1] bcast_S1x2_S500x2_0_1 (broadcastInDim S1x2 ![1] bcast_S2_S1x2_1 bo))

section Generic

variable (m : (ℓ : Loc nD τ sig) → Buf (Elt F) ℓ)

def U1 (c : Dev nD) : Valuation τ sig (Elt F) := StableHlo.after rops0 (launchContents m c)

def UL0 (c : Dev nD) : Valuation τ sig (Elt F) := StableHlo.after ropsL0 (U1 m c)

def UL1 (c : Dev nD) : Valuation τ sig (Elt F) := StableHlo.after ropsL1 (UL0 m c)

def UL2 (c : Dev nD) : Valuation τ sig (Elt F) := StableHlo.after ropsL2 (UL1 m c)

def UL3 (c : Dev nD) : Valuation τ sig (Elt F) := StableHlo.after ropsL3 (UL2 m c)

def UL4 (c : Dev nD) : Valuation τ sig (Elt F) := StableHlo.after ropsL4 (UL3 m c)

def UL5 (c : Dev nD) : Valuation τ sig (Elt F) := StableHlo.after ropsL5 (UL4 m c)

def UL6 (c : Dev nD) : Valuation τ sig (Elt F) := StableHlo.after ropsL6 (UL5 m c)

def UT (c : Dev nD) : Valuation τ sig (Elt F) := StableHlo.after ropsT (UL6 m c)

theorem rstage0_v1 (c : Dev nD) : U1 m c (Proc.devRef .tc main_v1) = v1T (m ((c.tc : Thread nD τ).loc main_arg1)) := by
  show StableHlo.after rops0 (launchContents m c) _ = _
  after_results; rfl
theorem rstage0_v3 (c : Dev nD) : U1 m c (Proc.devRef .tc main_v3) = v3T (m ((c.tc : Thread nD τ).loc main_arg1)) := by
  show StableHlo.after rops0 (launchContents m c) _ = _
  after_results; rfl
theorem rstage0_v11 (c : Dev nD) : U1 m c (Proc.devRef .tc main_v11) = v11T (m ((c.tc : Thread nD τ).loc main_arg1)) := by
  show StableHlo.after rops0 (launchContents m c) _ = _
  after_results; rfl

abbrev W0 : List (Ref sig .tc) := [main_v0, main_v1, main_v2, main_v3, main_cst, main_v4, main_cst_0, main_v5, main_v6, main_v7, main_cst_1, main_call0_v0, main_call0_v1, main_v8, main_cst_2, main_v9, main_v10, main_v11]
theorem rops0_writes : (rops0 : List (HloOp τ sig (Elt F))).Forall fun op => op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A stretch's operations write the listed references only; any other reference reads after it what it read before. -/
theorem U1_of (c : Dev nD) (r : Ref sig .tc) (h : r ∉ W0) : U1 m c (Proc.devRef .tc r) = launchContents m c (Proc.devRef .tc r) :=
  StableHlo.after_of_writes_sub rops0 _ rops0_writes h

abbrev WL0 : List (Ref sig .tc) := [main_c, main_v12, main_v13, main_c_3, main_v14, main_v15, main_v16, main_v17, main_v18, main_cst_4, main_v19, main_v20, main_v21, main_v22, main_v23, main_v24, main_v25, main_v26, main_v27, main_v28, main_v29, main_v30, main_v31, main_v32, main_v33, main_v34, main_v35, main_call1_cst, main_call1_v0, main_v36]
theorem ropsL0_writes : (ropsL0 : List (HloOp τ sig (Elt F))).Forall fun op => op.writes ⊆ (WL0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
theorem UL0_of (c : Dev nD) (r : Ref sig .tc) (h : r ∉ WL0) : UL0 m c (Proc.devRef .tc r) = U1 m c (Proc.devRef .tc r) :=
  StableHlo.after_of_writes_sub ropsL0 _ ropsL0_writes h

abbrev WL1 : List (Ref sig .tc) := [main_c_5, main_v37, main_v38, main_c_6, main_v39, main_v40, main_v41, main_v42, main_v43, main_cst_7, main_v44, main_v45, main_v46, main_v47, main_v48, main_v49, main_v50, main_v51, main_v52, main_v53, main_v54, main_v55, main_v56, main_v57, main_v58, main_v59, main_v60, main_call2_cst, main_call2_v0, main_v61]
theorem ropsL1_writes : (ropsL1 : List (HloOp τ sig (Elt F))).Forall fun op => op.writes ⊆ (WL1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
theorem UL1_of (c : Dev nD) (r : Ref sig .tc) (h : r ∉ WL1) : UL1 m c (Proc.devRef .tc r) = UL0 m c (Proc.devRef .tc r) :=
  StableHlo.after_of_writes_sub ropsL1 _ ropsL1_writes h

abbrev WL2 : List (Ref sig .tc) := [main_c_8, main_v62, main_v63, main_c_9, main_v64, main_v65, main_v66, main_v67, main_v68, main_cst_10, main_v69, main_v70, main_v71, main_v72, main_v73, main_v74, main_v75, main_v76, main_v77, main_v78, main_v79, main_v80, main_v81, main_v82, main_v83, main_v84, main_v85, main_call3_cst, main_call3_v0, main_v86]
theorem ropsL2_writes : (ropsL2 : List (HloOp τ sig (Elt F))).Forall fun op => op.writes ⊆ (WL2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
theorem UL2_of (c : Dev nD) (r : Ref sig .tc) (h : r ∉ WL2) : UL2 m c (Proc.devRef .tc r) = UL1 m c (Proc.devRef .tc r) :=
  StableHlo.after_of_writes_sub ropsL2 _ ropsL2_writes h

abbrev WL3 : List (Ref sig .tc) := [main_c_11, main_v87, main_v88, main_c_12, main_v89, main_v90, main_v91, main_v92, main_v93, main_cst_13, main_v94, main_v95, main_v96, main_v97, main_v98, main_v99, main_v100, main_v101, main_v102, main_v103, main_v104, main_v105, main_v106, main_v107, main_v108, main_v109, main_v110, main_call4_cst, main_call4_v0, main_v111]
theorem ropsL3_writes : (ropsL3 : List (HloOp τ sig (Elt F))).Forall fun op => op.writes ⊆ (WL3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
theorem UL3_of (c : Dev nD) (r : Ref sig .tc) (h : r ∉ WL3) : UL3 m c (Proc.devRef .tc r) = UL2 m c (Proc.devRef .tc r) :=
  StableHlo.after_of_writes_sub ropsL3 _ ropsL3_writes h

abbrev WL4 : List (Ref sig .tc) := [main_c_14, main_v112, main_v113, main_c_15, main_v114, main_v115, main_v116, main_v117, main_v118, main_cst_16, main_v119, main_v120, main_v121, main_v122, main_v123, main_v124, main_v125, main_v126, main_v127, main_v128, main_v129, main_v130, main_v131, main_v132, main_v133, main_v134, main_v135, main_call5_cst, main_call5_v0, main_v136]
theorem ropsL4_writes : (ropsL4 : List (HloOp τ sig (Elt F))).Forall fun op => op.writes ⊆ (WL4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
theorem UL4_of (c : Dev nD) (r : Ref sig .tc) (h : r ∉ WL4) : UL4 m c (Proc.devRef .tc r) = UL3 m c (Proc.devRef .tc r) :=
  StableHlo.after_of_writes_sub ropsL4 _ ropsL4_writes h

abbrev WL5 : List (Ref sig .tc) := [main_c_17, main_v137, main_v138, main_c_18, main_v139, main_v140, main_v141, main_v142, main_v143, main_cst_19, main_v144, main_v145, main_v146, main_v147, main_v148, main_v149, main_v150, main_v151, main_v152, main_v153, main_v154, main_v155, main_v156, main_v157, main_v158, main_v159, main_v160, main_call6_cst, main_call6_v0, main_v161]
theorem ropsL5_writes : (ropsL5 : List (HloOp τ sig (Elt F))).Forall fun op => op.writes ⊆ (WL5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
theorem UL5_of (c : Dev nD) (r : Ref sig .tc) (h : r ∉ WL5) : UL5 m c (Proc.devRef .tc r) = UL4 m c (Proc.devRef .tc r) :=
  StableHlo.after_of_writes_sub ropsL5 _ ropsL5_writes h

abbrev WL6 : List (Ref sig .tc) := [main_c_20, main_v162, main_v163, main_c_21, main_v164, main_v165, main_v166, main_v167, main_v168, main_cst_22, main_v169, main_v170, main_v171, main_v172, main_v173, main_v174, main_v175, main_v176, main_v177, main_v178, main_v179, main_v180, main_v181, main_v182, main_v183, main_v184, main_v185]
theorem ropsL6_writes : (ropsL6 : List (HloOp τ sig (Elt F))).Forall fun op => op.writes ⊆ (WL6.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
theorem UL6_of (c : Dev nD) (r : Ref sig .tc) (h : r ∉ WL6) : UL6 m c (Proc.devRef .tc r) = UL5 m c (Proc.devRef .tc r) :=
  StableHlo.after_of_writes_sub ropsL6 _ ropsL6_writes h

abbrev WT : List (Ref sig .tc) := [main_cst_23, main_v186, main_v187, main_v188, main_v189, main_v190, main_v191, main_v192]
theorem ropsT_writes : (ropsT : List (HloOp τ sig (Elt F))).Forall fun op => op.writes ⊆ (WT.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
theorem UT_of (c : Dev nD) (r : Ref sig .tc) (h : r ∉ WT) : UT m c (Proc.devRef .tc r) = UL6 m c (Proc.devRef .tc r) :=
  StableHlo.after_of_writes_sub ropsT _ ropsT_writes h

/-- Reference r holds x after the first stretch and after every later one. -/
abbrev Kept (c : Dev nD) (r : Ref sig .tc) (x : (Proc.devRef .tc r : DevRef τ sig).ty.Contents (Elt F)) : Prop :=
  U1 m c (Proc.devRef .tc r) = x ∧ UL0 m c (Proc.devRef .tc r) = x ∧ UL1 m c (Proc.devRef .tc r) = x ∧ UL2 m c (Proc.devRef .tc r) = x ∧ UL3 m c (Proc.devRef .tc r) = x ∧ UL4 m c (Proc.devRef .tc r) = x ∧ UL5 m c (Proc.devRef .tc r) = x ∧ UL6 m c (Proc.devRef .tc r) = x ∧ UT m c (Proc.devRef .tc r) = x

/-- A stretch changes only what its operations write, so what no later stretch writes is carried through all of them. -/
theorem kept (c : Dev nD) (r : Ref sig .tc) (h : r ∉ WL0 ++ WL1 ++ WL2 ++ WL3 ++ WL4 ++ WL5 ++ WL6 ++ WT) {x} (hx : U1 m c (Proc.devRef .tc r) = x) : Kept m c r x := by
  simp only [List.mem_append, not_or] at h
  obtain ⟨⟨⟨⟨⟨⟨⟨h0, h1⟩, h2⟩, h3⟩, h4⟩, h5⟩, h6⟩, hT⟩ := h
  have e0 := (UL0_of m c r h0).trans hx
  have e1 := (UL1_of m c r h1).trans e0
  have e2 := (UL2_of m c r h2).trans e1
  have e3 := (UL3_of m c r h3).trans e2
  have e4 := (UL4_of m c r h4).trans e3
  have e5 := (UL5_of m c r h5).trans e4
  have e6 := (UL6_of m c r h6).trans e5
  exact ⟨hx, e0, e1, e2, e3, e4, e5, e6, (UT_of m c r hT).trans e6⟩

/-- No operation writes an argument. -/
theorem keptArg (c : Dev nD) (r : Ref sig .tc) (h0 : r ∉ W0) (h : r ∉ WL0 ++ WL1 ++ WL2 ++ WL3 ++ WL4 ++ WL5 ++ WL6 ++ WT) : Kept m c r (m ((c.tc : Thread nD τ).loc r)) :=
  kept m c r h ((U1_of m c r h0).trans rfl)

theorem kA0 (c : Dev nD) : Kept m c main_arg0 (m ((c.tc : Thread nD τ).loc main_arg0)) := keptArg m c _ (by decide) (by decide)
theorem kA1 (c : Dev nD) : Kept m c main_arg1 (m ((c.tc : Thread nD τ).loc main_arg1)) := keptArg m c _ (by decide) (by decide)
theorem kA2 (c : Dev nD) : Kept m c main_arg2 (m ((c.tc : Thread nD τ).loc main_arg2)) := keptArg m c _ (by decide) (by decide)
theorem kA3 (c : Dev nD) : Kept m c main_arg3 (m ((c.tc : Thread nD τ).loc main_arg3)) := keptArg m c _ (by decide) (by decide)
theorem kA4 (c : Dev nD) : Kept m c main_arg4 (m ((c.tc : Thread nD τ).loc main_arg4)) := keptArg m c _ (by decide) (by decide)
theorem kA5 (c : Dev nD) : Kept m c main_arg5 (m ((c.tc : Thread nD τ).loc main_arg5)) := keptArg m c _ (by decide) (by decide)
theorem kA6 (c : Dev nD) : Kept m c main_arg6 (m ((c.tc : Thread nD τ).loc main_arg6)) := keptArg m c _ (by decide) (by decide)
theorem kA7 (c : Dev nD) : Kept m c main_arg7 (m ((c.tc : Thread nD τ).loc main_arg7)) := keptArg m c _ (by decide) (by decide)
theorem kV1 (c : Dev nD) : Kept m c main_v1 (v1T (m ((c.tc : Thread nD τ).loc main_arg1))) := kept m c _ (by decide) (rstage0_v1 m c)
theorem kV3 (c : Dev nD) : Kept m c main_v3 (v3T (m ((c.tc : Thread nD τ).loc main_arg1))) := kept m c _ (by decide) (rstage0_v3 m c)
theorem kV11 (c : Dev nD) : Kept m c main_v11 (v11T (m ((c.tc : Thread nD τ).loc main_arg1))) := kept m c _ (by decide) (rstage0_v11 m c)

set_option maxHeartbeats 2000000 in
set_option maxRecDepth 8192 in

theorem layerR_0_raw (c : Dev nD) : UL0 m c (Proc.devRef .tc main_v36) =
      maximumf (addf (addf (Host.dotGeneral dot_S50000x128_S128x128_S50000x128_1_0_0_1_n_n none
            (aggT (U1 m c (Proc.devRef .tc main_arg0)) (U1 m c (Proc.devRef .tc main_v1)) (U1 m c (Proc.devRef .tc main_v3)) (U1 m c (Proc.devRef .tc main_v11)))
            (wlT0 (U1 m c (Proc.devRef .tc main_arg3))))
          (broadcastInDim S50000x128 ![0, 1] bcast_S1x128_S50000x128_0_1 (broadcastInDim S1x128 ![1] bcast_S128_S1x128_1 (bT0 (U1 m c (Proc.devRef .tc main_arg5))))))
        (Host.dotGeneral dot_S50000x128_S128x128_S50000x128_1_0_0_1_n_n none (U1 m c (Proc.devRef .tc main_arg0)) (wlT0 (U1 m c (Proc.devRef .tc main_arg4)))))
        (broadcastInDim S50000x128 ![] bcast_S_S50000x128 (constant S_ .f32 0x00000000#32)) := by
  show StableHlo.after ropsL0 (U1 m c) _ = _
  after_results_simp <;> rfl

set_option maxHeartbeats 2000000 in
set_option maxRecDepth 8192 in

theorem layerR_1_raw (c : Dev nD) : UL1 m c (Proc.devRef .tc main_v61) =
      maximumf (addf (addf (Host.dotGeneral dot_S50000x128_S128x128_S50000x128_1_0_0_1_n_n none
            (aggT (UL0 m c (Proc.devRef .tc main_v36)) (UL0 m c (Proc.devRef .tc main_v1)) (UL0 m c (Proc.devRef .tc main_v3)) (UL0 m c (Proc.devRef .tc main_v11)))
            (wlT1 (UL0 m c (Proc.devRef .tc main_arg3))))
          (broadcastInDim S50000x128 ![0, 1] bcast_S1x128_S50000x128_0_1 (broadcastInDim S1x128 ![1] bcast_S128_S1x128_1 (bT1 (UL0 m c (Proc.devRef .tc main_arg5))))))
        (Host.dotGeneral dot_S50000x128_S128x128_S50000x128_1_0_0_1_n_n none (UL0 m c (Proc.devRef .tc main_v36)) (wlT1 (UL0 m c (Proc.devRef .tc main_arg4)))))
        (broadcastInDim S50000x128 ![] bcast_S_S50000x128 (constant S_ .f32 0x00000000#32)) := by
  show StableHlo.after ropsL1 (UL0 m c) _ = _
  after_results_simp <;> rfl

set_option maxHeartbeats 2000000 in
set_option maxRecDepth 8192 in

theorem layerR_2_raw (c : Dev nD) : UL2 m c (Proc.devRef .tc main_v86) =
      maximumf (addf (addf (Host.dotGeneral dot_S50000x128_S128x128_S50000x128_1_0_0_1_n_n none
            (aggT (UL1 m c (Proc.devRef .tc main_v61)) (UL1 m c (Proc.devRef .tc main_v1)) (UL1 m c (Proc.devRef .tc main_v3)) (UL1 m c (Proc.devRef .tc main_v11)))
            (wlT2 (UL1 m c (Proc.devRef .tc main_arg3))))
          (broadcastInDim S50000x128 ![0, 1] bcast_S1x128_S50000x128_0_1 (broadcastInDim S1x128 ![1] bcast_S128_S1x128_1 (bT2 (UL1 m c (Proc.devRef .tc main_arg5))))))
        (Host.dotGeneral dot_S50000x128_S128x128_S50000x128_1_0_0_1_n_n none (UL1 m c (Proc.devRef .tc main_v61)) (wlT2 (UL1 m c (Proc.devRef .tc main_arg4)))))
        (broadcastInDim S50000x128 ![] bcast_S_S50000x128 (constant S_ .f32 0x00000000#32)) := by
  show StableHlo.after ropsL2 (UL1 m c) _ = _
  after_results_simp <;> rfl

set_option maxHeartbeats 2000000 in
set_option maxRecDepth 8192 in

theorem layerR_3_raw (c : Dev nD) : UL3 m c (Proc.devRef .tc main_v111) =
      maximumf (addf (addf (Host.dotGeneral dot_S50000x128_S128x128_S50000x128_1_0_0_1_n_n none
            (aggT (UL2 m c (Proc.devRef .tc main_v86)) (UL2 m c (Proc.devRef .tc main_v1)) (UL2 m c (Proc.devRef .tc main_v3)) (UL2 m c (Proc.devRef .tc main_v11)))
            (wlT3 (UL2 m c (Proc.devRef .tc main_arg3))))
          (broadcastInDim S50000x128 ![0, 1] bcast_S1x128_S50000x128_0_1 (broadcastInDim S1x128 ![1] bcast_S128_S1x128_1 (bT3 (UL2 m c (Proc.devRef .tc main_arg5))))))
        (Host.dotGeneral dot_S50000x128_S128x128_S50000x128_1_0_0_1_n_n none (UL2 m c (Proc.devRef .tc main_v86)) (wlT3 (UL2 m c (Proc.devRef .tc main_arg4)))))
        (broadcastInDim S50000x128 ![] bcast_S_S50000x128 (constant S_ .f32 0x00000000#32)) := by
  show StableHlo.after ropsL3 (UL2 m c) _ = _
  after_results_simp <;> rfl

set_option maxHeartbeats 2000000 in
set_option maxRecDepth 8192 in

theorem layerR_4_raw (c : Dev nD) : UL4 m c (Proc.devRef .tc main_v136) =
      maximumf (addf (addf (Host.dotGeneral dot_S50000x128_S128x128_S50000x128_1_0_0_1_n_n none
            (aggT (UL3 m c (Proc.devRef .tc main_v111)) (UL3 m c (Proc.devRef .tc main_v1)) (UL3 m c (Proc.devRef .tc main_v3)) (UL3 m c (Proc.devRef .tc main_v11)))
            (wlT4 (UL3 m c (Proc.devRef .tc main_arg3))))
          (broadcastInDim S50000x128 ![0, 1] bcast_S1x128_S50000x128_0_1 (broadcastInDim S1x128 ![1] bcast_S128_S1x128_1 (bT4 (UL3 m c (Proc.devRef .tc main_arg5))))))
        (Host.dotGeneral dot_S50000x128_S128x128_S50000x128_1_0_0_1_n_n none (UL3 m c (Proc.devRef .tc main_v111)) (wlT4 (UL3 m c (Proc.devRef .tc main_arg4)))))
        (broadcastInDim S50000x128 ![] bcast_S_S50000x128 (constant S_ .f32 0x00000000#32)) := by
  show StableHlo.after ropsL4 (UL3 m c) _ = _
  after_results_simp <;> rfl

set_option maxHeartbeats 2000000 in
set_option maxRecDepth 8192 in

theorem layerR_5_raw (c : Dev nD) : UL5 m c (Proc.devRef .tc main_v161) =
      maximumf (addf (addf (Host.dotGeneral dot_S50000x128_S128x128_S50000x128_1_0_0_1_n_n none
            (aggT (UL4 m c (Proc.devRef .tc main_v136)) (UL4 m c (Proc.devRef .tc main_v1)) (UL4 m c (Proc.devRef .tc main_v3)) (UL4 m c (Proc.devRef .tc main_v11)))
            (wlT5 (UL4 m c (Proc.devRef .tc main_arg3))))
          (broadcastInDim S50000x128 ![0, 1] bcast_S1x128_S50000x128_0_1 (broadcastInDim S1x128 ![1] bcast_S128_S1x128_1 (bT5 (UL4 m c (Proc.devRef .tc main_arg5))))))
        (Host.dotGeneral dot_S50000x128_S128x128_S50000x128_1_0_0_1_n_n none (UL4 m c (Proc.devRef .tc main_v136)) (wlT5 (UL4 m c (Proc.devRef .tc main_arg4)))))
        (broadcastInDim S50000x128 ![] bcast_S_S50000x128 (constant S_ .f32 0x00000000#32)) := by
  show StableHlo.after ropsL5 (UL4 m c) _ = _
  after_results_simp <;> rfl

set_option maxHeartbeats 2000000 in
set_option maxRecDepth 8192 in

theorem layerR_6_raw (c : Dev nD) : UL6 m c (Proc.devRef .tc main_v185) =
      addf (addf (Host.dotGeneral dot_S50000x128_S128x128_S50000x128_1_0_0_1_n_n none
            (aggT (UL5 m c (Proc.devRef .tc main_v161)) (UL5 m c (Proc.devRef .tc main_v1)) (UL5 m c (Proc.devRef .tc main_v3)) (UL5 m c (Proc.devRef .tc main_v11)))
            (wlT6 (UL5 m c (Proc.devRef .tc main_arg3))))
          (broadcastInDim S50000x128 ![0, 1] bcast_S1x128_S50000x128_0_1 (broadcastInDim S1x128 ![1] bcast_S128_S1x128_1 (bT6 (UL5 m c (Proc.devRef .tc main_arg5))))))
        (Host.dotGeneral dot_S50000x128_S128x128_S50000x128_1_0_0_1_n_n none (UL5 m c (Proc.devRef .tc main_v161)) (wlT6 (UL5 m c (Proc.devRef .tc main_arg4)))) := by
  show StableHlo.after ropsL6 (UL5 m c) _ = _
  after_results_simp <;> rfl

theorem tailR_raw (c : Dev nD) : UT m c (Proc.devRef .tc main_v192) =
      headT (Host.scatterAdd scatter_S500x128_S50000x1_S50000x128_1_0_0_1
          (broadcastInDim S500x128 ![] bcast_S_S500x128 (constant S_ .f32 0x00000000#32))
          (broadcastInDim S50000x1 ![0] bcast_S50000_S50000x1_0 (UL6 m c (Proc.devRef .tc main_arg2)))
          (UL6 m c (Proc.devRef .tc main_v185)))
        (UL6 m c (Proc.devRef .tc main_arg6)) (UL6 m c (Proc.devRef .tc main_arg7)) := by
  show StableHlo.after ropsT (UL6 m c) _ = _
  after_results; rfl

/-- The fold of all the operations is the fold stretch by stretch. -/
theorem refFoldF (c : Dev nD) : StableHlo.after (ops (F := F)) (launchContents m c) (Proc.devRef .tc main_v192) = UT m c (Proc.devRef .tc main_v192) :=
  congrFun (after_ops (launchContents m c)) _

theorem refArg0 (c : Dev nD) : StableHlo.after (ops (F := F)) (launchContents m c) (Proc.devRef .tc main_arg0) = (m ((c.tc : Thread nD τ).loc main_arg0)) :=
  (congrFun (after_ops (launchContents m c)) _).trans (kA0 m c).2.2.2.2.2.2.2.2

theorem refArg1 (c : Dev nD) : StableHlo.after (ops (F := F)) (launchContents m c) (Proc.devRef .tc main_arg1) = (m ((c.tc : Thread nD τ).loc main_arg1)) :=
  (congrFun (after_ops (launchContents m c)) _).trans (kA1 m c).2.2.2.2.2.2.2.2

theorem refArg2 (c : Dev nD) : StableHlo.after (ops (F := F)) (launchContents m c) (Proc.devRef .tc main_arg2) = (m ((c.tc : Thread nD τ).loc main_arg2)) :=
  (congrFun (after_ops (launchContents m c)) _).trans (kA2 m c).2.2.2.2.2.2.2.2

theorem refArg3 (c : Dev nD) : StableHlo.after (ops (F := F)) (launchContents m c) (Proc.devRef .tc main_arg3) = (m ((c.tc : Thread nD τ).loc main_arg3)) :=
  (congrFun (after_ops (launchContents m c)) _).trans (kA3 m c).2.2.2.2.2.2.2.2

theorem refArg4 (c : Dev nD) : StableHlo.after (ops (F := F)) (launchContents m c) (Proc.devRef .tc main_arg4) = (m ((c.tc : Thread nD τ).loc main_arg4)) :=
  (congrFun (after_ops (launchContents m c)) _).trans (kA4 m c).2.2.2.2.2.2.2.2

theorem refArg5 (c : Dev nD) : StableHlo.after (ops (F := F)) (launchContents m c) (Proc.devRef .tc main_arg5) = (m ((c.tc : Thread nD τ).loc main_arg5)) :=
  (congrFun (after_ops (launchContents m c)) _).trans (kA5 m c).2.2.2.2.2.2.2.2

theorem refArg6 (c : Dev nD) : StableHlo.after (ops (F := F)) (launchContents m c) (Proc.devRef .tc main_arg6) = (m ((c.tc : Thread nD τ).loc main_arg6)) :=
  (congrFun (after_ops (launchContents m c)) _).trans (kA6 m c).2.2.2.2.2.2.2.2

theorem refArg7 (c : Dev nD) : StableHlo.after (ops (F := F)) (launchContents m c) (Proc.devRef .tc main_arg7) = (m ((c.tc : Thread nD τ).loc main_arg7)) :=
  (congrFun (after_ops (launchContents m c)) _).trans (kA7 m c).2.2.2.2.2.2.2.2

end Generic

section AtIdeal

variable (m : (ℓ : Loc nD τ sig) → Buf (Elt Ideal) ℓ)

theorem layerR_0 (c : Dev nD) : UL0 m c (Proc.devRef .tc main_v36) =
      Cert.Spec.dense true (aggT (F := Ideal) (m ((c.tc : Thread nD τ).loc main_arg0)) (v1T (m ((c.tc : Thread nD τ).loc main_arg1))) (v3T (m ((c.tc : Thread nD τ).loc main_arg1))) (v11T (F := Ideal) (m ((c.tc : Thread nD τ).loc main_arg1)))) (m ((c.tc : Thread nD τ).loc main_arg0))
        (wlT0 (F := Ideal) (m ((c.tc : Thread nD τ).loc main_arg3))) (wlT0 (F := Ideal) (m ((c.tc : Thread nD τ).loc main_arg4))) (fun f => bT0 (F := Ideal) (m ((c.tc : Thread nD τ).loc main_arg5)) (ix1 f)) := by
  rw [layerR_0_raw, (kA0 m c).1, (kA3 m c).1, (kA4 m c).1, (kA5 m c).1, (kV1 m c).1, (kV3 m c).1, (kV11 m c).1]
  exact refDense_relu _ _ _ _ _

theorem layerR_1 (c : Dev nD) : UL1 m c (Proc.devRef .tc main_v61) =
      Cert.Spec.dense true (aggT (F := Ideal) (UL0 m c (Proc.devRef .tc main_v36)) (v1T (m ((c.tc : Thread nD τ).loc main_arg1))) (v3T (m ((c.tc : Thread nD τ).loc main_arg1))) (v11T (F := Ideal) (m ((c.tc : Thread nD τ).loc main_arg1)))) (UL0 m c (Proc.devRef .tc main_v36))
        (wlT1 (F := Ideal) (m ((c.tc : Thread nD τ).loc main_arg3))) (wlT1 (F := Ideal) (m ((c.tc : Thread nD τ).loc main_arg4))) (fun f => bT1 (F := Ideal) (m ((c.tc : Thread nD τ).loc main_arg5)) (ix1 f)) := by
  rw [layerR_1_raw, (kA3 m c).2.1, (kA4 m c).2.1, (kA5 m c).2.1, (kV1 m c).2.1, (kV3 m c).2.1, (kV11 m c).2.1]
  exact refDense_relu _ _ _ _ _

theorem layerR_2 (c : Dev nD) : UL2 m c (Proc.devRef .tc main_v86) =
      Cert.Spec.dense true (aggT (F := Ideal) (UL1 m c (Proc.devRef .tc main_v61)) (v1T (m ((c.tc : Thread nD τ).loc main_arg1))) (v3T (m ((c.tc : Thread nD τ).loc main_arg1))) (v11T (F := Ideal) (m ((c.tc : Thread nD τ).loc main_arg1)))) (UL1 m c (Proc.devRef .tc main_v61))
        (wlT2 (F := Ideal) (m ((c.tc : Thread nD τ).loc main_arg3))) (wlT2 (F := Ideal) (m ((c.tc : Thread nD τ).loc main_arg4))) (fun f => bT2 (F := Ideal) (m ((c.tc : Thread nD τ).loc main_arg5)) (ix1 f)) := by
  rw [layerR_2_raw, (kA3 m c).2.2.1, (kA4 m c).2.2.1, (kA5 m c).2.2.1, (kV1 m c).2.2.1, (kV3 m c).2.2.1, (kV11 m c).2.2.1]
  exact refDense_relu _ _ _ _ _

theorem layerR_3 (c : Dev nD) : UL3 m c (Proc.devRef .tc main_v111) =
      Cert.Spec.dense true (aggT (F := Ideal) (UL2 m c (Proc.devRef .tc main_v86)) (v1T (m ((c.tc : Thread nD τ).loc main_arg1))) (v3T (m ((c.tc : Thread nD τ).loc main_arg1))) (v11T (F := Ideal) (m ((c.tc : Thread nD τ).loc main_arg1)))) (UL2 m c (Proc.devRef .tc main_v86))
        (wlT3 (F := Ideal) (m ((c.tc : Thread nD τ).loc main_arg3))) (wlT3 (F := Ideal) (m ((c.tc : Thread nD τ).loc main_arg4))) (fun f => bT3 (F := Ideal) (m ((c.tc : Thread nD τ).loc main_arg5)) (ix1 f)) := by
  rw [layerR_3_raw, (kA3 m c).2.2.2.1, (kA4 m c).2.2.2.1, (kA5 m c).2.2.2.1, (kV1 m c).2.2.2.1, (kV3 m c).2.2.2.1, (kV11 m c).2.2.2.1]
  exact refDense_relu _ _ _ _ _

theorem layerR_4 (c : Dev nD) : UL4 m c (Proc.devRef .tc main_v136) =
      Cert.Spec.dense true (aggT (F := Ideal) (UL3 m c (Proc.devRef .tc main_v111)) (v1T (m ((c.tc : Thread nD τ).loc main_arg1))) (v3T (m ((c.tc : Thread nD τ).loc main_arg1))) (v11T (F := Ideal) (m ((c.tc : Thread nD τ).loc main_arg1)))) (UL3 m c (Proc.devRef .tc main_v111))
        (wlT4 (F := Ideal) (m ((c.tc : Thread nD τ).loc main_arg3))) (wlT4 (F := Ideal) (m ((c.tc : Thread nD τ).loc main_arg4))) (fun f => bT4 (F := Ideal) (m ((c.tc : Thread nD τ).loc main_arg5)) (ix1 f)) := by
  rw [layerR_4_raw, (kA3 m c).2.2.2.2.1, (kA4 m c).2.2.2.2.1, (kA5 m c).2.2.2.2.1, (kV1 m c).2.2.2.2.1, (kV3 m c).2.2.2.2.1, (kV11 m c).2.2.2.2.1]
  exact refDense_relu _ _ _ _ _

theorem layerR_5 (c : Dev nD) : UL5 m c (Proc.devRef .tc main_v161) =
      Cert.Spec.dense true (aggT (F := Ideal) (UL4 m c (Proc.devRef .tc main_v136)) (v1T (m ((c.tc : Thread nD τ).loc main_arg1))) (v3T (m ((c.tc : Thread nD τ).loc main_arg1))) (v11T (F := Ideal) (m ((c.tc : Thread nD τ).loc main_arg1)))) (UL4 m c (Proc.devRef .tc main_v136))
        (wlT5 (F := Ideal) (m ((c.tc : Thread nD τ).loc main_arg3))) (wlT5 (F := Ideal) (m ((c.tc : Thread nD τ).loc main_arg4))) (fun f => bT5 (F := Ideal) (m ((c.tc : Thread nD τ).loc main_arg5)) (ix1 f)) := by
  rw [layerR_5_raw, (kA3 m c).2.2.2.2.2.1, (kA4 m c).2.2.2.2.2.1, (kA5 m c).2.2.2.2.2.1, (kV1 m c).2.2.2.2.2.1, (kV3 m c).2.2.2.2.2.1, (kV11 m c).2.2.2.2.2.1]
  exact refDense_relu _ _ _ _ _

theorem layerR_6 (c : Dev nD) : UL6 m c (Proc.devRef .tc main_v185) =
      Cert.Spec.dense false (aggT (F := Ideal) (UL5 m c (Proc.devRef .tc main_v161)) (v1T (m ((c.tc : Thread nD τ).loc main_arg1))) (v3T (m ((c.tc : Thread nD τ).loc main_arg1))) (v11T (F := Ideal) (m ((c.tc : Thread nD τ).loc main_arg1)))) (UL5 m c (Proc.devRef .tc main_v161))
        (wlT6 (F := Ideal) (m ((c.tc : Thread nD τ).loc main_arg3))) (wlT6 (F := Ideal) (m ((c.tc : Thread nD τ).loc main_arg4))) (fun f => bT6 (F := Ideal) (m ((c.tc : Thread nD τ).loc main_arg5)) (ix1 f)) := by
  rw [layerR_6_raw, (kA3 m c).2.2.2.2.2.2.1, (kA4 m c).2.2.2.2.2.2.1, (kA5 m c).2.2.2.2.2.2.1, (kV1 m c).2.2.2.2.2.2.1, (kV3 m c).2.2.2.2.2.2.1, (kV11 m c).2.2.2.2.2.2.1]
  exact refDense_last _ _ _ _ _

theorem tailR (c : Dev nD) : UT m c (Proc.devRef .tc main_v192) =
      headT (F := Ideal) (Cert.Spec.pool (fun n => (m ((c.tc : Thread nD τ).loc main_arg2)) (ix1 n)) (UL6 m c (Proc.devRef .tc main_v185)))
        (m ((c.tc : Thread nD τ).loc main_arg6)) (m ((c.tc : Thread nD τ).loc main_arg7)) := by
  rw [tailR_raw, (kA2 m c).2.2.2.2.2.2.2.1, (kA6 m c).2.2.2.2.2.2.2.1, (kA7 m c).2.2.2.2.2.2.2.1, refPool]

theorem refFold (c : Dev nD) : StableHlo.after (ops (F := Ideal)) (launchContents m c) (Proc.devRef .tc main_v192) = UT m c (Proc.devRef .tc main_v192) :=
  refFoldF m c

end AtIdeal

end Cert.ReferenceIdeal.Hand

end
-- ==== Proof.Join.lean ====
import proofs.«422910_j59356448031328_1_alg».proof.Defs
import proofs.«422910_j59356448031328_1_alg».proof.Proof.Gen.KernelIdeal
import proofs.«422910_j59356448031328_1_alg».proof.Proof.Gen.ReferenceIdeal
import proofs.«422910_j59356448031328_1_alg».proof.Proof.Gen.Pre_finite_inputs
import proofs.«422910_j59356448031328_1_alg».proof.Proof.KI.Layers
import proofs.«422910_j59356448031328_1_alg».proof.Proof.RefRead
import Idealize.ShloMosaic.Lib.ValueLayout

set_option maxRecDepth 16384

noncomputable section

namespace Cert.Proof.Join

open Idealize.ShloMosaic Idealize.ShloMosaic.TcCoe Idealize.ShloMosaic.ValueIdx Idealize.SL.Sem

theorem bT0_eq (b : FVec Ideal Cert.KernelIdeal.S7x128 .f32) :
    (fun f : Fin 128 => Cert.KernelIdeal.Hand.bT0 (F := Ideal) b (ix2 (0 : Fin 1) f)) = fun f => Cert.ReferenceIdeal.Hand.bT0 (F := Ideal) b (ix1 f) :=
  funext fun f => ValueIdx.shapeCast_a_1a_apply _ _ 0 f
theorem bT1_eq (b : FVec Ideal Cert.KernelIdeal.S7x128 .f32) :
    (fun f : Fin 128 => Cert.KernelIdeal.Hand.bT1 (F := Ideal) b (ix2 (0 : Fin 1) f)) = fun f => Cert.ReferenceIdeal.Hand.bT1 (F := Ideal) b (ix1 f) :=
  funext fun f => ValueIdx.shapeCast_a_1a_apply _ _ 0 f
theorem bT2_eq (b : FVec Ideal Cert.KernelIdeal.S7x128 .f32) :
    (fun f : Fin 128 => Cert.KernelIdeal.Hand.bT2 (F := Ideal) b (ix2 (0 : Fin 1) f)) = fun f => Cert.ReferenceIdeal.Hand.bT2 (F := Ideal) b (ix1 f) :=
  funext fun f => ValueIdx.shapeCast_a_1a_apply _ _ 0 f
theorem bT3_eq (b : FVec Ideal Cert.KernelIdeal.S7x128 .f32) :
    (fun f : Fin 128 => Cert.KernelIdeal.Hand.bT3 (F := Ideal) b (ix2 (0 : Fin 1) f)) = fun f => Cert.ReferenceIdeal.Hand.bT3 (F := Ideal) b (ix1 f) :=
  funext fun f => ValueIdx.shapeCast_a_1a_apply _ _ 0 f
theorem bT4_eq (b : FVec Ideal Cert.KernelIdeal.S7x128 .f32) :
    (fun f : Fin 128 => Cert.KernelIdeal.Hand.bT4 (F := Ideal) b (ix2 (0 : Fin 1) f)) = fun f => Cert.ReferenceIdeal.Hand.bT4 (F := Ideal) b (ix1 f) :=
  funext fun f => ValueIdx.shapeCast_a_1a_apply _ _ 0 f
theorem bT5_eq (b : FVec Ideal Cert.KernelIdeal.S7x128 .f32) :
    (fun f : Fin 128 => Cert.KernelIdeal.Hand.bT5 (F := Ideal) b (ix2 (0 : Fin 1) f)) = fun f => Cert.ReferenceIdeal.Hand.bT5 (F := Ideal) b (ix1 f) :=
  funext fun f => ValueIdx.shapeCast_a_1a_apply _ _ 0 f
theorem bT6_eq (b : FVec Ideal Cert.KernelIdeal.S7x128 .f32) :
    (fun f : Fin 128 => Cert.KernelIdeal.Hand.bT6 (F := Ideal) b (ix2 (0 : Fin 1) f)) = fun f => Cert.ReferenceIdeal.Hand.bT6 (F := Ideal) b (ix1 f) :=
  funext fun f => ValueIdx.shapeCast_a_1a_apply _ _ 0 f

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m m'}

theorem layer0 (h : Agree m m') (c : Dev Cert.KernelIdeal.nD) :
    Cert.KernelIdeal.Hand.W4 m c (Proc.devRef .tc Cert.KernelIdeal.main_v31) = Cert.ReferenceIdeal.Hand.UL0 m' c (Proc.devRef .tc Cert.ReferenceIdeal.main_v36) := by
  rw [Cert.KernelIdeal.Hand.layerK_0, Cert.ReferenceIdeal.Hand.layerR_0, (h c).1, (h c).2.1, (h c).2.2.2.1, (h c).2.2.2.2.1, (h c).2.2.2.2.2.1, bT0_eq]
  rfl
theorem layer1 (h : Agree m m') (c : Dev Cert.KernelIdeal.nD) :
    Cert.KernelIdeal.Hand.W6 m c (Proc.devRef .tc Cert.KernelIdeal.main_v51) = Cert.ReferenceIdeal.Hand.UL1 m' c (Proc.devRef .tc Cert.ReferenceIdeal.main_v61) := by
  rw [Cert.KernelIdeal.Hand.layerK_1, Cert.ReferenceIdeal.Hand.layerR_1, layer0 h c, (h c).2.1, (h c).2.2.2.1, (h c).2.2.2.2.1, (h c).2.2.2.2.2.1, bT1_eq]
  rfl
theorem layer2 (h : Agree m m') (c : Dev Cert.KernelIdeal.nD) :
    Cert.KernelIdeal.Hand.W8 m c (Proc.devRef .tc Cert.KernelIdeal.main_v71) = Cert.ReferenceIdeal.Hand.UL2 m' c (Proc.devRef .tc Cert.ReferenceIdeal.main_v86) := by
  rw [Cert.KernelIdeal.Hand.layerK_2, Cert.ReferenceIdeal.Hand.layerR_2, layer1 h c, (h c).2.1, (h c).2.2.2.1, (h c).2.2.2.2.1, (h c).2.2.2.2.2.1, bT2_eq]
  rfl
theorem layer3 (h : Agree m m') (c : Dev Cert.KernelIdeal.nD) :
    Cert.KernelIdeal.Hand.W10 m c (Proc.devRef .tc Cert.KernelIdeal.main_v91) = Cert.ReferenceIdeal.Hand.UL3 m' c (Proc.devRef .tc Cert.ReferenceIdeal.main_v111) := by
  rw [Cert.KernelIdeal.Hand.layerK_3, Cert.ReferenceIdeal.Hand.layerR_3, layer2 h c, (h c).2.1, (h c).2.2.2.1, (h c).2.2.2.2.1, (h c).2.2.2.2.2.1, bT3_eq]
  rfl
theorem layer4 (h : Agree m m') (c : Dev Cert.KernelIdeal.nD) :
    Cert.KernelIdeal.Hand.W12 m c (Proc.devRef .tc Cert.KernelIdeal.main_v111) = Cert.ReferenceIdeal.Hand.UL4 m' c (Proc.devRef .tc Cert.ReferenceIdeal.main_v136) := by
  rw [Cert.KernelIdeal.Hand.layerK_4, Cert.ReferenceIdeal.Hand.layerR_4, layer3 h c, (h c).2.1, (h c).2.2.2.1, (h c).2.2.2.2.1, (h c).2.2.2.2.2.1, bT4_eq]
  rfl
theorem layer5 (h : Agree m m') (c : Dev Cert.KernelIdeal.nD) :
    Cert.KernelIdeal.Hand.W14 m c (Proc.devRef .tc Cert.KernelIdeal.main_v131) = Cert.ReferenceIdeal.Hand.UL5 m' c (Proc.devRef .tc Cert.ReferenceIdeal.main_v161) := by
  rw [Cert.KernelIdeal.Hand.layerK_5, Cert.ReferenceIdeal.Hand.layerR_5, layer4 h c, (h c).2.1, (h c).2.2.2.1, (h c).2.2.2.2.1, (h c).2.2.2.2.2.1, bT5_eq]
  rfl
theorem layer6 (h : Agree m m') (c : Dev Cert.KernelIdeal.nD) :
    Cert.KernelIdeal.Hand.W16 m c (Proc.devRef .tc Cert.KernelIdeal.main_v151) = Cert.ReferenceIdeal.Hand.UL6 m' c (Proc.devRef .tc Cert.ReferenceIdeal.main_v185) := by
  rw [Cert.KernelIdeal.Hand.layerK_6, Cert.ReferenceIdeal.Hand.layerR_6, layer5 h c, (h c).2.1, (h c).2.2.2.1, (h c).2.2.2.2.1, (h c).2.2.2.2.2.1, bT6_eq]
  rfl

theorem result_eq (h : Agree m m') (c : Dev Cert.KernelIdeal.nD) :
    StableHlo.after (Cert.ReferenceIdeal.ValueP.ops (F := Ideal)) (StableHlo.launchContents m' c) (Proc.devRef .tc Cert.ReferenceIdeal.main_v192)
      = Cert.KernelIdeal.Hand.W19 m c (Proc.devRef .tc Cert.KernelIdeal.main_v158) := by
  rw [Cert.ReferenceIdeal.Hand.refFold, Cert.ReferenceIdeal.Hand.tailR, Cert.KernelIdeal.Hand.outK, layer6 h c, (h c).2.2.1, (h c).2.2.2.2.2.2.1, (h c).2.2.2.2.2.2.2]
  rfl

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun r h c => ⟨(h c Cert.ReferenceIdeal.main_arg0).trans (Cert.ReferenceIdeal.Hand.refArg0 m c),
    (h c Cert.ReferenceIdeal.main_arg1).trans (Cert.ReferenceIdeal.Hand.refArg1 m c),
    (h c Cert.ReferenceIdeal.main_arg2).trans (Cert.ReferenceIdeal.Hand.refArg2 m c),
    (h c Cert.ReferenceIdeal.main_arg3).trans (Cert.ReferenceIdeal.Hand.refArg3 m c),
    (h c Cert.ReferenceIdeal.main_arg4).trans (Cert.ReferenceIdeal.Hand.refArg4 m c),
    (h c Cert.ReferenceIdeal.main_arg5).trans (Cert.ReferenceIdeal.Hand.refArg5 m c),
    (h c Cert.ReferenceIdeal.main_arg6).trans (Cert.ReferenceIdeal.Hand.refArg6 m c),
    (h c Cert.ReferenceIdeal.main_arg7).trans (Cert.ReferenceIdeal.Hand.refArg7 m c)⟩)
    (Cert.ReferenceIdeal.ValueP.run (F := Ideal) m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Hand.W19 m c (Proc.devRef .tc Cert.KernelIdeal.main_v158), ?_, ?_⟩
  · exact (θ_run (Cert.KernelIdeal.defs (F := Ideal)) _ _).mono (fun r h c => ⟨h c _ (Cert.KernelIdeal.Hand.mem_uc Cert.KernelIdeal.main_v158 (by decide)),
      (h c _ (Cert.KernelIdeal.Hand.mem_uc Cert.KernelIdeal.main_arg0 (by decide))).trans (Cert.KernelIdeal.Hand.W19_main_arg0 m c),
      (h c _ (Cert.KernelIdeal.Hand.mem_uc Cert.KernelIdeal.main_arg1 (by decide))).trans (Cert.KernelIdeal.Hand.W19_main_arg1 m c),
      (h c _ (Cert.KernelIdeal.Hand.mem_uc Cert.KernelIdeal.main_arg2 (by decide))).trans (Cert.KernelIdeal.Hand.W19_main_arg2 m c),
      (h c _ (Cert.KernelIdeal.Hand.mem_uc Cert.KernelIdeal.main_arg3 (by decide))).trans (Cert.KernelIdeal.Hand.W19_main_arg3 m c),
      (h c _ (Cert.KernelIdeal.Hand.mem_uc Cert.KernelIdeal.main_arg4 (by decide))).trans (Cert.KernelIdeal.Hand.W19_main_arg4 m c),
      (h c _ (Cert.KernelIdeal.Hand.mem_uc Cert.KernelIdeal.main_arg5 (by decide))).trans (Cert.KernelIdeal.Hand.W19_main_arg5 m c),
      (h c _ (Cert.KernelIdeal.Hand.mem_uc Cert.KernelIdeal.main_arg6 (by decide))).trans (Cert.KernelIdeal.Hand.W19_main_arg6 m c),
      (h c _ (Cert.KernelIdeal.Hand.mem_uc Cert.KernelIdeal.main_arg7 (by decide))).trans (Cert.KernelIdeal.Hand.W19_main_arg7 m c)⟩)
      (Cert.KernelIdeal.Hand.run_all m ρ)
  · exact (θ_run (Cert.ReferenceIdeal.defs (F := Ideal)) _ _).mono (fun r h c => ⟨(h c Cert.ReferenceIdeal.main_v192).trans (result_eq hagree c),
      (h c Cert.ReferenceIdeal.main_arg0).trans (Cert.ReferenceIdeal.Hand.refArg0 m' c),
      (h c Cert.ReferenceIdeal.main_arg1).trans (Cert.ReferenceIdeal.Hand.refArg1 m' c),
      (h c Cert.ReferenceIdeal.main_arg2).trans (Cert.ReferenceIdeal.Hand.refArg2 m' c),
      (h c Cert.ReferenceIdeal.main_arg3).trans (Cert.ReferenceIdeal.Hand.refArg3 m' c),
      (h c Cert.ReferenceIdeal.main_arg4).trans (Cert.ReferenceIdeal.Hand.refArg4 m' c),
      (h c Cert.ReferenceIdeal.main_arg5).trans (Cert.ReferenceIdeal.Hand.refArg5 m' c),
      (h c Cert.ReferenceIdeal.main_arg6).trans (Cert.ReferenceIdeal.Hand.refArg6 m' c),
      (h c Cert.ReferenceIdeal.main_arg7).trans (Cert.ReferenceIdeal.Hand.refArg7 m' c)⟩)
      (Cert.ReferenceIdeal.ValueP.run (F := Ideal) m' ρ')

end Cert.Proof.Join

end
-- ==== Proof.lean ====
import proofs.«422910_j59356448031328_1_alg».proof.Defs
import proofs.«422910_j59356448031328_1_alg».proof.Proof.Gen.Kernel
import proofs.«422910_j59356448031328_1_alg».proof.Proof.Gen.KernelIdeal
import proofs.«422910_j59356448031328_1_alg».proof.Proof.Gen.ReferenceIdeal
import proofs.«422910_j59356448031328_1_alg».proof.Proof.Gen.Pre_finite_inputs
import proofs.«422910_j59356448031328_1_alg».proof.Proof.KB.Run
import proofs.«422910_j59356448031328_1_alg».proof.Proof.KI.Run
import proofs.«422910_j59356448031328_1_alg».proof.Proof.Join
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem claim : Cert.Claim := ⟨Cert.Kernel.Gen.facts, Cert.KernelIdeal.Gen.facts, Cert.ReferenceIdeal.Gen.facts, Cert.Pre_finite_inputs.Gen.facts,
  frame_k, frame_ki, Cert.Proof.Join.frame_ri, trivial, Cert.Proof.Join.algebraic⟩

end Cert.Proof

end
